-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x500 : Shape := ⟨2, ![64, 500]⟩
abbrev S500 : Shape := ⟨1, ![500]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x500 : S_.BroadcastsInDim S64x500 (![] : Fin 0 → Fin S64x500.rank)
  reducesTo_S64x500_S_d0_1 : S64x500.ReducesTo [0, 1] S_
  bcast_S_S500 : S_.BroadcastsInDim S500 (![] : Fin 0 → Fin S500.rank)
  reducesTo_S500_S_d0 : S500.ReducesTo [0] S_

variable [Facts]

def fn_part5 {F : FTy → Type} [FloatOps F] (main_arg19 : FVec F S500 .f32) (main_v83 : IVec S_ 1) (main_v84 : FVec F S64x500 .f32) (main_cst_32 : FVec F S_ .f32) : IVec S_ 1 :=
  let main_v85 : FVec F S64x500 .f32 := broadcastInDim S64x500 ![] bcast_S_S64x500 main_cst_32
  let main_v86 : IVec S64x500 1 := cmpf .olt main_v84 main_v85
  let main_c_33 : IVec S_ 1 := constantI S_ 1 1#1
  let main_v87 : IVec S_ 1 := (fun x v => Host.reduce IntOp.andi x v reducesTo_S64x500_S_d0_1 h_S_) main_v86 main_c_33
  let main_v88 : IVec S_ 1 := andi main_v83 main_v87
  let main_v89 : FVec F S500 .f32 := Host.absf main_arg19
  let main_cst_34 : FVec F S_ .f32 := constant S_ .f32 0x7F800000#32
  let main_v90 : FVec F S500 .f32 := broadcastInDim S500 ![] bcast_S_S500 main_cst_34
  let main_v91 : IVec S500 1 := cmpf .olt main_v89 main_v90
  let main_c_35 : IVec S_ 1 := constantI S_ 1 1#1
  let main_v92 : IVec S_ 1 := (fun x v => Host.reduce IntOp.andi x v reducesTo_S500_S_d0 h_S_) main_v91 main_c_35
  let main_v93 : IVec S_ 1 := andi main_v88 main_v92
  main_v93

def fn_part4 {F : FTy → Type} [FloatOps F] (main_arg15 : FVec F S64 .f32) (main_arg16 : FVec F S64 .f32) (main_arg17 : FVec F S64 .f32) (main_arg18 : FVec F S64x500 .f32) (main_arg19 : FVec F S500 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x500 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x500 .f32) (main_arg19 : FVec F S500 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_arg16 main_arg17 main_arg18 main_arg19 main_v63 main_v67

def fn_part2 {F : FTy → Type} [FloatOps F] (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x500 .f32) (main_arg19 : FVec F S500 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128x256 .f32) (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x500 .f32) (main_arg19 : FVec F S500 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x256 .f32) (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x500 .f32) (main_arg19 : FVec F S500 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x500 : Shape := ⟨2, ![64, 500]⟩
abbrev S500 : Shape := ⟨1, ![500]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S5000x128 : Shape := ⟨2, ![5000, 128]⟩
abbrev S800000x128 : Shape := ⟨2, ![800000, 128]⟩
abbrev S50000x1 : Shape := ⟨2, ![50000, 1]⟩
abbrev S1x128 : Shape := ⟨2, ![1, 128]⟩
abbrev S5000 : Shape := ⟨1, ![5000]⟩
abbrev S5000x1 : Shape := ⟨2, ![5000, 1]⟩
abbrev S50000x256 : Shape := ⟨2, ![50000, 256]⟩
abbrev S5000x256 : Shape := ⟨2, ![5000, 256]⟩
abbrev S800000x256 : Shape := ⟨2, ![800000, 256]⟩
abbrev S1x256 : Shape := ⟨2, ![1, 256]⟩
abbrev S1x64 : Shape := ⟨2, ![1, 64]⟩
abbrev S50000x64 : Shape := ⟨2, ![50000, 64]⟩
abbrev S5000x64 : Shape := ⟨2, ![5000, 64]⟩
abbrev S64x512 : Shape := ⟨2, ![64, 512]⟩
abbrev S512 : Shape := ⟨1, ![512]⟩
abbrev S1x512 : Shape := ⟨2, ![1, 512]⟩
abbrev S50000x512 : Shape := ⟨2, ![50000, 512]⟩
abbrev S5000x512 : Shape := ⟨2, ![5000, 512]⟩
abbrev S50000x500 : Shape := ⟨2, ![50000, 500]⟩

abbrev nBuf : Space → Nat
  | .hbm => 149
  | .vmem => 50
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x256, .f32⟩
  | 7 => ⟨S256, .f32⟩
  | 8 => ⟨S256, .f32⟩
  | 9 => ⟨S256, .f32⟩
  | 10 => ⟨S256x128, .f32⟩
  | 11 => ⟨S128, .f32⟩
  | 12 => ⟨S128, .f32⟩
  | 13 => ⟨S128, .f32⟩
  | 14 => ⟨S128x64, .f32⟩
  | 15 => ⟨S64, .f32⟩
  | 16 => ⟨S64, .f32⟩
  | 17 => ⟨S64, .f32⟩
  | 18 => ⟨S64x500, .f32⟩
  | 19 => ⟨S500, .f32⟩
  | 20 => ⟨S1x800000, .i32⟩
  | 21 => ⟨S800000, .i32⟩
  | 22 => ⟨S1x800000, .i32⟩
  | 23 => ⟨S800000, .i32⟩
  | 24 => ⟨S_, .f32⟩
  | 25 => ⟨S800000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000, .f32⟩
  | 59 => ⟨S800000, .f32⟩
  | 60 => ⟨S50000, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x1, .f32⟩
  | 72 => ⟨S800000x128, .f32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S50000x1, .f32⟩
  | 79 => ⟨S50000x128, .f32⟩
  | 80 => ⟨S50000x128, .f32⟩
  | 81 => ⟨S50000x128, .f32⟩
  | 82 => ⟨S1x128, .f32⟩
  | 83 => ⟨S1x128, .f32⟩
  | 84 => ⟨S1x128, .f32⟩
  | 85 => ⟨S50000x128, .f32⟩
  | 86 => ⟨S50000x256, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x256, .f32⟩
  | 96 => ⟨S800000x1, .f32⟩
  | 97 => ⟨S800000x256, .f32⟩
  | 98 => ⟨S800000x256, .f32⟩
  | 99 => ⟨S_, .f32⟩
  | 100 => ⟨S50000x256, .f32⟩
  | 101 => ⟨S800000x1, .i32⟩
  | 102 => ⟨S50000x256, .f32⟩
  | 103 => ⟨S50000x1, .f32⟩
  | 104 => ⟨S50000x256, .f32⟩
  | 105 => ⟨S50000x256, .f32⟩
  | 106 => ⟨S50000x256, .f32⟩
  | 107 => ⟨S1x256, .f32⟩
  | 108 => ⟨S1x256, .f32⟩
  | 109 => ⟨S1x256, .f32⟩
  | 110 => ⟨S50000x256, .f32⟩
  | 111 => ⟨S50000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S800000x1, .f32⟩
  | 122 => ⟨S800000x128, .f32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S50000x128, .f32⟩

abbrev hbmTy0_1 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S1x128, .f32⟩
  | 5 => ⟨S1x128, .f32⟩
  | 6 => ⟨S1x128, .f32⟩
  | 7 => ⟨S50000x128, .f32⟩
  | 8 => ⟨S1x64, .f32⟩
  | 9 => ⟨S1x64, .f32⟩
  | 10 => ⟨S1x64, .f32⟩
  | 11 => ⟨S50000x64, .f32⟩
  | 12 => ⟨S_, .i32⟩
  | 13 => ⟨S_, .f32⟩
  | 14 => ⟨S64x512, .f32⟩
  | 15 => ⟨S_, .i32⟩
  | 16 => ⟨S_, .f32⟩
  | 17 => ⟨S512, .f32⟩
  | 18 => ⟨S1x512, .f32⟩
  | 19 => ⟨S50000x512, .f32⟩
  | 20 => ⟨S50000x500, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S256x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x512, .f32⟩
  | .local _ .vmem, ⟨47, _⟩ => ⟨S1x512, .f32⟩
  | .local _ .vmem, ⟨48, _⟩ => ⟨S5000x512, .f32⟩
  | .local _ .vmem, ⟨49, _⟩ => ⟨S5000x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_c_6 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_7 : Ref sig .tc := ⟨.hbm, 62, rfl⟩
abbrev main_v31 : Ref sig .tc := ⟨.hbm, 63, rfl⟩
abbrev main_v32 : Ref sig .tc := ⟨.hbm, 64, rfl⟩
abbrev main_c_8 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_9 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_10 : Ref sig .tc := ⟨.hbm, 87, rfl⟩
abbrev main_v53 : Ref sig .tc := ⟨.hbm, 88, rfl⟩
abbrev main_v54 : Ref sig .tc := ⟨.hbm, 89, rfl⟩
abbrev main_c_11 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_12 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_13 : Ref sig .tc := ⟨.hbm, 112, rfl⟩
abbrev main_v75 : Ref sig .tc := ⟨.hbm, 113, rfl⟩
abbrev main_v76 : Ref sig .tc := ⟨.hbm, 114, rfl⟩
abbrev main_c_14 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_15 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_16 : Ref sig .tc := ⟨.hbm, 140, rfl⟩
abbrev main_call1_v0 : Ref sig .tc := ⟨.hbm, 141, rfl⟩
abbrev main_v100 : Ref sig .tc := ⟨.hbm, 142, rfl⟩
abbrev main_c_17 : Ref sig .tc := ⟨.hbm, 143, rfl⟩
abbrev main_call2_v0 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg4_0 : Ref sig .tc := ⟨.vmem, 41, rfl⟩
abbrev cc6_stg5_0 : Ref sig .tc := ⟨.vmem, 42, rfl⟩
abbrev cc6_stg5_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem4_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem4_0 : DmaSem sig := 41
abbrev cc6_sem5_0 : DmaSem sig := 42
abbrev cc6_sem5_1 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem3_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  reduces_S5000x256_S5000 : S5000x256.Reduces [1] S5000
  broadcasts_S5000x1_S5000x256 : S5000x1.Broadcasts S5000x256
  inb_S256x128_S256x128_0_0 : ∀ a, (![0, 0] : Fin 2 → Nat) a + S256x128.size a ≤ S256x128.size a
  h_S256x128 : 0 < S256x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  pads_S64x500_S64x512_000_0120 : S64x500.Pads (![0, 0] : Fin 2 → Nat) ![0, 12] ![0, 0] S64x512
  h_S_ : 0 < S_.numel
  pads_S500_S512_0120 : S500.Pads (![0] : Fin 1 → Nat) ![12] ![0] S512
  shapeCasts_S512_S1x512 : S512.ShapeCasts S1x512
  shapeCasts_S5000x64_S5000x64 : S5000x64.ShapeCasts S5000x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  inb_S5000x512_S5000x512_0_0 : ∀ a, (![0, 0] : Fin 2 → Nat) a + S5000x512.size a ≤ S5000x512.size a
  h_S5000x512 : 0 < S5000x512.numel
  slices_S50000x512_S50000x500_0_0 : S50000x512.Slices ![0, 0] S50000x500
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  dot_S5000x128_S128x64_S5000x64_1_0_0_1_n_n_wf : DotDims.WF S5000x128 S128x64 S5000x64 [1] [0] [0] [1] [] []
  dot_S5000x64_S64x512_S5000x512_1_0_0_1_n_n_wf : DotDims.WF S5000x64 S64x512 S5000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x256.size a ≤ S50000x256.size a
  hwx3_4 : ∀ i : grid3.Coords, EltTy.bits .f32 = 32 ∨ (Rect.block (s := S50000x256) S5000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x512.size a ≤ S64x512.size a
  hwx7_1 : ∀ i : grid7.Coords, EltTy.bits .f32 = 32 ∨ (Rect.block (s := S64x512) S64x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x512.size a ≤ S50000x512.size a
  hwx7_3 : ∀ i : grid7.Coords, EltTy.bits .f32 = 32 ∨ (Rect.block (s := S50000x512) S5000x512.size (cc7_transform_3 i) (hinb7_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x512_S5000x512_1_0_0_1_n_n : DotDims S5000x64 S64x512 S5000x512 where
  lhsContracting := [1]
  rhsContracting := [0]
  lhsNonContracting := [0]
  rhsNonContracting := [1]
  lhsBatch := []
  rhsBatch := []
  wf := dot_S5000x64_S64x512_S5000x512_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S5000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v73) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v91) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v95) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v96) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v97) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v98) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v99) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v99) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v100) S64x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v102) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v103) S5000x512.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x500 : Shape := ⟨2, ![64, 500]⟩
abbrev S500 : Shape := ⟨1, ![500]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x256 : Shape := ⟨2, ![50000, 256]⟩
abbrev S800000x256 : Shape := ⟨2, ![800000, 256]⟩
abbrev S1x256 : Shape := ⟨2, ![1, 256]⟩
abbrev S50000x64 : Shape := ⟨2, ![50000, 64]⟩
abbrev S1x64 : Shape := ⟨2, ![1, 64]⟩
abbrev S50000x500 : Shape := ⟨2, ![50000, 500]⟩
abbrev S1x500 : Shape := ⟨2, ![1, 500]⟩

abbrev nBuf : Space → Nat
  | .hbm => 391
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x256, .f32⟩
  | 7 => ⟨S256, .f32⟩
  | 8 => ⟨S256, .f32⟩
  | 9 => ⟨S256, .f32⟩
  | 10 => ⟨S256x128, .f32⟩
  | 11 => ⟨S128, .f32⟩
  | 12 => ⟨S128, .f32⟩
  | 13 => ⟨S128, .f32⟩
  | 14 => ⟨S128x64, .f32⟩
  | 15 => ⟨S64, .f32⟩
  | 16 => ⟨S64, .f32⟩
  | 17 => ⟨S64, .f32⟩
  | 18 => ⟨S64x500, .f32⟩
  | 19 => ⟨S500, .f32⟩
  | 20 => ⟨S1x800000, .i32⟩
  | 21 => ⟨S800000, .i32⟩
  | 22 => ⟨S1x800000, .i32⟩
  | 23 => ⟨S800000, .i32⟩
  | 24 => ⟨S50000x128, .f32⟩
  | 25 => ⟨S_, .f32⟩
  | 26 => ⟨S800000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S50000, .f32⟩
  | 33 => ⟨S50000, .f32⟩
  | 34 => ⟨S_, .f32⟩
  | 35 => ⟨S50000, .f32⟩
  | 36 => ⟨S50000, .i1⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000, .f32⟩
  | 60 => ⟨S800000, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x1, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S50000, .f32⟩
  | 78 => ⟨S50000x1, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000, .f32⟩
  | 87 => ⟨S50000x1, .f32⟩
  | 88 => ⟨S_, .f32⟩
  | 89 => ⟨S50000x1, .f32⟩
  | 90 => ⟨S50000x1, .f32⟩
  | 91 => ⟨S50000x128, .f32⟩
  | 92 => ⟨S50000x128, .f32⟩
  | 93 => ⟨S50000x128, .f32⟩
  | 94 => ⟨S_, .f32⟩
  | 95 => ⟨S50000, .f32⟩
  | 96 => ⟨S50000x1, .f32⟩
  | 97 => ⟨S_, .f32⟩
  | 98 => ⟨S50000x1, .f32⟩
  | 99 => ⟨S50000x1, .f32⟩
  | 100 => ⟨S50000x128, .f32⟩
  | 101 => ⟨S50000x128, .f32⟩
  | 102 => ⟨S_, .f32⟩
  | 103 => ⟨S50000x1, .f32⟩
  | 104 => ⟨S50000x1, .f32⟩
  | 105 => ⟨S50000x1, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .i1⟩
  | 117 => ⟨S_, .f32⟩
  | 118 => ⟨S50000x128, .f32⟩
  | 119 => ⟨S50000x128, .i1⟩
  | 120 => ⟨S_, .f32⟩
  | 121 => ⟨S_, .f32⟩
  | 122 => ⟨S50000x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x256, .f32⟩
  | 2 => ⟨S_, .f32⟩
  | 3 => ⟨S800000, .f32⟩
  | 4 => ⟨S_, .f32⟩
  | 5 => ⟨S50000, .f32⟩
  | 6 => ⟨S800000x1, .i32⟩
  | 7 => ⟨S50000, .f32⟩
  | 8 => ⟨S_, .f32⟩
  | 9 => ⟨S50000, .f32⟩
  | 10 => ⟨S50000, .f32⟩
  | 11 => ⟨S_, .f32⟩
  | 12 => ⟨S50000, .f32⟩
  | 13 => ⟨S50000, .i1⟩
  | 14 => ⟨S50000, .f32⟩
  | 15 => ⟨S_, .f32⟩
  | 16 => ⟨S_, .f32⟩
  | 17 => ⟨S50000, .f32⟩
  | 18 => ⟨S50000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x256, .f32⟩
  | 47 => ⟨S800000x1, .f32⟩
  | 48 => ⟨S800000x256, .f32⟩
  | 49 => ⟨S800000x256, .f32⟩
  | 50 => ⟨S_, .f32⟩
  | 51 => ⟨S50000x256, .f32⟩
  | 52 => ⟨S800000x1, .i32⟩
  | 53 => ⟨S50000x256, .f32⟩
  | 54 => ⟨S50000, .f32⟩
  | 55 => ⟨S50000x1, .f32⟩
  | 56 => ⟨S50000x256, .f32⟩
  | 57 => ⟨S50000x256, .f32⟩
  | 58 => ⟨S50000x256, .f32⟩
  | 59 => ⟨S1x256, .f32⟩
  | 60 => ⟨S50000x256, .f32⟩
  | 61 => ⟨S50000x256, .f32⟩
  | 62 => ⟨S_, .f32⟩
  | 63 => ⟨S50000, .f32⟩
  | 64 => ⟨S50000x1, .f32⟩
  | 65 => ⟨S_, .f32⟩
  | 66 => ⟨S50000x1, .f32⟩
  | 67 => ⟨S50000x1, .f32⟩
  | 68 => ⟨S50000x256, .f32⟩
  | 69 => ⟨S50000x256, .f32⟩
  | 70 => ⟨S50000x256, .f32⟩
  | 71 => ⟨S_, .f32⟩
  | 72 => ⟨S50000, .f32⟩
  | 73 => ⟨S50000x1, .f32⟩
  | 74 => ⟨S_, .f32⟩
  | 75 => ⟨S50000x1, .f32⟩
  | 76 => ⟨S50000x1, .f32⟩
  | 77 => ⟨S50000x256, .f32⟩
  | 78 => ⟨S50000x256, .f32⟩
  | 79 => ⟨S_, .f32⟩
  | 80 => ⟨S50000x1, .f32⟩
  | 81 => ⟨S50000x1, .f32⟩
  | 82 => ⟨S50000x1, .f32⟩
  | 83 => ⟨S50000x256, .f32⟩
  | 84 => ⟨S50000x256, .f32⟩
  | 85 => ⟨S1x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S_, .f32⟩
  | 92 => ⟨S50000x256, .f32⟩
  | 93 => ⟨S50000x256, .i1⟩
  | 94 => ⟨S_, .f32⟩
  | 95 => ⟨S50000x256, .f32⟩
  | 96 => ⟨S50000x256, .i1⟩
  | 97 => ⟨S_, .f32⟩
  | 98 => ⟨S_, .f32⟩
  | 99 => ⟨S50000x256, .f32⟩
  | 100 => ⟨S50000x256, .f32⟩
  | 101 => ⟨S50000x256, .f32⟩
  | 102 => ⟨S_, .f32⟩
  | 103 => ⟨S50000x256, .f32⟩
  | 104 => ⟨S50000x256, .f32⟩
  | 105 => ⟨S50000x256, .f32⟩
  | 106 => ⟨S50000x128, .f32⟩
  | 107 => ⟨S_, .f32⟩
  | 108 => ⟨S800000, .f32⟩
  | 109 => ⟨S_, .f32⟩
  | 110 => ⟨S50000, .f32⟩
  | 111 => ⟨S800000x1, .i32⟩
  | 112 => ⟨S50000, .f32⟩
  | 113 => ⟨S_, .f32⟩
  | 114 => ⟨S50000, .f32⟩
  | 115 => ⟨S50000, .f32⟩
  | 116 => ⟨S_, .f32⟩
  | 117 => ⟨S50000, .f32⟩
  | 118 => ⟨S50000, .i1⟩
  | 119 => ⟨S50000, .f32⟩
  | 120 => ⟨S_, .f32⟩
  | 121 => ⟨S_, .f32⟩
  | 122 => ⟨S50000, .f32⟩
  | 123 => ⟨S50000, .f32⟩
  | 124 => ⟨S_, .i32⟩
  | 125 => ⟨S800000, .i32⟩
  | 126 => ⟨S800000, .i1⟩
  | 127 => ⟨S_, .i32⟩
  | _ => ⟨S50000x128, .f32⟩

abbrev hbmTy0_2 (i : Nat) : BufTy := match i % 128 with
  | 0 => ⟨S800000, .i32⟩
  | 1 => ⟨S800000, .i32⟩
  | 2 => ⟨S800000, .i32⟩
  | 3 => ⟨S800000x1, .i32⟩
  | 4 => ⟨S800000, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000, .f32⟩
  | 14 => ⟨S800000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S800000x1, .f32⟩
  | 25 => ⟨S800000x128, .f32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S50000, .f32⟩
  | 32 => ⟨S50000x1, .f32⟩
  | 33 => ⟨S50000x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S50000, .f32⟩
  | 41 => ⟨S50000x1, .f32⟩
  | 42 => ⟨S_, .f32⟩
  | 43 => ⟨S50000x1, .f32⟩
  | 44 => ⟨S50000x1, .f32⟩
  | 45 => ⟨S50000x128, .f32⟩
  | 46 => ⟨S50000x128, .f32⟩
  | 47 => ⟨S50000x128, .f32⟩
  | 48 => ⟨S_, .f32⟩
  | 49 => ⟨S50000, .f32⟩
  | 50 => ⟨S50000x1, .f32⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S_, .f32⟩
  | 57 => ⟨S50000x1, .f32⟩
  | 58 => ⟨S50000x1, .f32⟩
  | 59 => ⟨S50000x1, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .i1⟩
  | 71 => ⟨S_, .f32⟩
  | 72 => ⟨S50000x128, .f32⟩
  | 73 => ⟨S50000x128, .i1⟩
  | 74 => ⟨S_, .f32⟩
  | 75 => ⟨S_, .f32⟩
  | 76 => ⟨S50000x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S50000x64, .f32⟩
  | 84 => ⟨S1x64, .f32⟩
  | 85 => ⟨S50000x64, .f32⟩
  | 86 => ⟨S50000x64, .f32⟩
  | 87 => ⟨S_, .f32⟩
  | 88 => ⟨S50000, .f32⟩
  | 89 => ⟨S50000x1, .f32⟩
  | 90 => ⟨S_, .f32⟩
  | 91 => ⟨S50000x1, .f32⟩
  | 92 => ⟨S50000x1, .f32⟩
  | 93 => ⟨S50000x64, .f32⟩
  | 94 => ⟨S50000x64, .f32⟩
  | 95 => ⟨S50000x64, .f32⟩
  | 96 => ⟨S_, .f32⟩
  | 97 => ⟨S50000, .f32⟩
  | 98 => ⟨S50000x1, .f32⟩
  | 99 => ⟨S_, .f32⟩
  | 100 => ⟨S50000x1, .f32⟩
  | 101 => ⟨S50000x1, .f32⟩
  | 102 => ⟨S50000x64, .f32⟩
  | 103 => ⟨S50000x64, .f32⟩
  | 104 => ⟨S_, .f32⟩
  | 105 => ⟨S50000x1, .f32⟩
  | 106 => ⟨S50000x1, .f32⟩
  | 107 => ⟨S50000x1, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000x64, .f32⟩
  | 118 => ⟨S50000x64, .i1⟩
  | 119 => ⟨S_, .f32⟩
  | 120 => ⟨S50000x64, .f32⟩
  | 121 => ⟨S50000x64, .i1⟩
  | 122 => ⟨S_, .f32⟩
  | 123 => ⟨S_, .f32⟩
  | 124 => ⟨S50000x64, .f32⟩
  | 125 => ⟨S50000x64, .f32⟩
  | 126 => ⟨S50000x64, .f32⟩
  | 127 => ⟨S_, .f32⟩
  | _ => ⟨S50000x128, .f32⟩

abbrev hbmTy0_3 (i : Nat) : BufTy := match i % 128 with
  | 0 => ⟨S50000x64, .f32⟩
  | 1 => ⟨S50000x64, .f32⟩
  | 2 => ⟨S50000x64, .f32⟩
  | 3 => ⟨S50000x500, .f32⟩
  | 4 => ⟨S1x500, .f32⟩
  | 5 => ⟨S50000x500, .f32⟩
  | 6 => ⟨S50000x500, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v14 : Ref sig .tc := ⟨.hbm, 41, rfl⟩
abbrev main_c : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_5 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_7 : Ref sig .tc := ⟨.hbm, 61, rfl⟩
abbrev main_v30 : Ref sig .tc := ⟨.hbm, 62, rfl⟩
abbrev main_v31 : Ref sig .tc := ⟨.hbm, 63, rfl⟩
abbrev main_c_8 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_9 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_10 : Ref sig .tc := ⟨.hbm, 85, rfl⟩
abbrev main_v51 : Ref sig .tc := ⟨.hbm, 86, rfl⟩
abbrev main_v52 : Ref sig .tc := ⟨.hbm, 87, rfl⟩
abbrev main_cst_11 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_12 : Ref sig .tc := ⟨.hbm, 94, rfl⟩
abbrev main_v58 : Ref sig .tc := ⟨.hbm, 95, rfl⟩
abbrev main_v59 : Ref sig .tc := ⟨.hbm, 96, rfl⟩
abbrev main_cst_13 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_14 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_call1_cst : Ref sig .tc := ⟨.hbm, 114, rfl⟩
abbrev main_call1_v0 : Ref sig .tc := ⟨.hbm, 115, rfl⟩
abbrev main_call1_v1 : Ref sig .tc := ⟨.hbm, 116, rfl⟩
abbrev main_call1_cst_0 : Ref sig .tc := ⟨.hbm, 117, rfl⟩
abbrev main_call1_v2 : Ref sig .tc := ⟨.hbm, 118, rfl⟩
abbrev main_call1_v3 : Ref sig .tc := ⟨.hbm, 119, rfl⟩
abbrev main_call1_cst_1 : Ref sig .tc := ⟨.hbm, 120, rfl⟩
abbrev main_call1_call0_v0 : Ref sig .tc := ⟨.hbm, 121, rfl⟩
abbrev main_call1_call0_v1 : Ref sig .tc := ⟨.hbm, 122, rfl⟩
abbrev main_call1_v4 : Ref sig .tc := ⟨.hbm, 123, rfl⟩
abbrev main_call1_v5 : Ref sig .tc := ⟨.hbm, 124, rfl⟩
abbrev main_call1_cst_2 : Ref sig .tc := ⟨.hbm, 125, rfl⟩
abbrev main_call1_v6 : Ref sig .tc := ⟨.hbm, 126, rfl⟩
abbrev main_call1_v7 : Ref sig .tc := ⟨.hbm, 127, rfl⟩
abbrev main_v75 : Ref sig .tc := ⟨.hbm, 128, rfl⟩
abbrev main_v76 : Ref sig .tc := ⟨.hbm, 129, rfl⟩
abbrev main_cst_15 : Ref sig .tc := ⟨.hbm, 130, rfl⟩
abbrev main_v77 : Ref sig .tc := ⟨.hbm, 131, rfl⟩
abbrev main_cst_16 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_17 : Ref sig .tc := ⟨.hbm, 136, rfl⟩
abbrev main_v81 : Ref sig .tc := ⟨.hbm, 137, rfl⟩
abbrev main_v82 : Ref sig .tc := ⟨.hbm, 138, rfl⟩
abbrev main_cst_18 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_cst_19 : Ref sig .tc := ⟨.hbm, 143, rfl⟩
abbrev main_call2_v0 : Ref sig .tc := ⟨.hbm, 144, rfl⟩
abbrev main_call2_v1 : Ref sig .tc := ⟨.hbm, 145, rfl⟩
abbrev main_v86 : Ref sig .tc := ⟨.hbm, 146, rfl⟩
abbrev main_c_20 : Ref sig .tc := ⟨.hbm, 147, rfl⟩
abbrev main_v87 : Ref sig .tc := ⟨.hbm, 148, rfl⟩
abbrev main_v88 : Ref sig .tc := ⟨.hbm, 149, rfl⟩
abbrev main_c_21 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_c_22 : Ref sig .tc := ⟨.hbm, 156, rfl⟩
abbrev main_v94 : Ref sig .tc := ⟨.hbm, 157, rfl⟩
abbrev main_v95 : Ref sig .tc := ⟨.hbm, 158, rfl⟩
abbrev main_c_23 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_c_24 : Ref sig .tc := ⟨.hbm, 166, rfl⟩
abbrev main_v102 : Ref sig .tc := ⟨.hbm, 167, rfl⟩
abbrev main_v103 : Ref sig .tc := ⟨.hbm, 168, rfl⟩
abbrev main_c_25 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_26 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_cst_27 : Ref sig .tc := ⟨.hbm, 190, rfl⟩
abbrev main_v123 : Ref sig .tc := ⟨.hbm, 191, rfl⟩
abbrev main_v124 : Ref sig .tc := ⟨.hbm, 192, rfl⟩
abbrev main_cst_28 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_cst_29 : Ref sig .tc := ⟨.hbm, 199, rfl⟩
abbrev main_v130 : Ref sig .tc := ⟨.hbm, 200, rfl⟩
abbrev main_v131 : Ref sig .tc := ⟨.hbm, 201, rfl⟩
abbrev main_cst_30 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_cst_31 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_call3_cst : Ref sig .tc := ⟨.hbm, 219, rfl⟩
abbrev main_call3_v0 : Ref sig .tc := ⟨.hbm, 220, rfl⟩
abbrev main_call3_v1 : Ref sig .tc := ⟨.hbm, 221, rfl⟩
abbrev main_call3_cst_0 : Ref sig .tc := ⟨.hbm, 222, rfl⟩
abbrev main_call3_v2 : Ref sig .tc := ⟨.hbm, 223, rfl⟩
abbrev main_call3_v3 : Ref sig .tc := ⟨.hbm, 224, rfl⟩
abbrev main_call3_cst_1 : Ref sig .tc := ⟨.hbm, 225, rfl⟩
abbrev main_call3_call0_v0 : Ref sig .tc := ⟨.hbm, 226, rfl⟩
abbrev main_call3_call0_v1 : Ref sig .tc := ⟨.hbm, 227, rfl⟩
abbrev main_call3_v4 : Ref sig .tc := ⟨.hbm, 228, rfl⟩
abbrev main_call3_v5 : Ref sig .tc := ⟨.hbm, 229, rfl⟩
abbrev main_call3_cst_2 : Ref sig .tc := ⟨.hbm, 230, rfl⟩
abbrev main_call3_v6 : Ref sig .tc := ⟨.hbm, 231, rfl⟩
abbrev main_call3_v7 : Ref sig .tc := ⟨.hbm, 232, rfl⟩
abbrev main_v147 : Ref sig .tc := ⟨.hbm, 233, rfl⟩
abbrev main_v148 : Ref sig .tc := ⟨.hbm, 234, rfl⟩
abbrev main_cst_32 : Ref sig .tc := ⟨.hbm, 235, rfl⟩
abbrev main_v149 : Ref sig .tc := ⟨.hbm, 236, rfl⟩
abbrev main_cst_33 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_cst_34 : Ref sig .tc := ⟨.hbm, 241, rfl⟩
abbrev main_v153 : Ref sig .tc := ⟨.hbm, 242, rfl⟩
abbrev main_v154 : Ref sig .tc := ⟨.hbm, 243, rfl⟩
abbrev main_cst_35 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_cst_36 : Ref sig .tc := ⟨.hbm, 248, rfl⟩
abbrev main_call4_v0 : Ref sig .tc := ⟨.hbm, 249, rfl⟩
abbrev main_call4_v1 : Ref sig .tc := ⟨.hbm, 250, rfl⟩
abbrev main_v158 : Ref sig .tc := ⟨.hbm, 251, rfl⟩
abbrev main_c_37 : Ref sig .tc := ⟨.hbm, 252, rfl⟩
abbrev main_v159 : Ref sig .tc := ⟨.hbm, 253, rfl⟩
abbrev main_v160 : Ref sig .tc := ⟨.hbm, 254, rfl⟩
abbrev main_c_38 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_c_39 : Ref sig .tc := ⟨.hbm, 261, rfl⟩
abbrev main_v166 : Ref sig .tc := ⟨.hbm, 262, rfl⟩
abbrev main_v167 : Ref sig .tc := ⟨.hbm, 263, rfl⟩
abbrev main_c_40 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_c_41 : Ref sig .tc := ⟨.hbm, 271, rfl⟩
abbrev main_v174 : Ref sig .tc := ⟨.hbm, 272, rfl⟩
abbrev main_v175 : Ref sig .tc := ⟨.hbm, 273, rfl⟩
abbrev main_c_42 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_cst_43 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_cst_44 : Ref sig .tc := ⟨.hbm, 295, rfl⟩
abbrev main_v195 : Ref sig .tc := ⟨.hbm, 296, rfl⟩
abbrev main_v196 : Ref sig .tc := ⟨.hbm, 297, rfl⟩
abbrev main_cst_45 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_cst_46 : Ref sig .tc := ⟨.hbm, 304, rfl⟩
abbrev main_v202 : Ref sig .tc := ⟨.hbm, 305, rfl⟩
abbrev main_v203 : Ref sig .tc := ⟨.hbm, 306, rfl⟩
abbrev main_cst_47 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_cst_48 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_v213 : Ref sig .tc := ⟨.hbm, 318, rfl⟩
abbrev main_v214 : Ref sig .tc := ⟨.hbm, 319, rfl⟩
abbrev main_v215 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_call5_cst : Ref sig .tc := ⟨.hbm, 324, rfl⟩
abbrev main_call5_v0 : Ref sig .tc := ⟨.hbm, 325, rfl⟩
abbrev main_call5_v1 : Ref sig .tc := ⟨.hbm, 326, rfl⟩
abbrev main_call5_cst_0 : Ref sig .tc := ⟨.hbm, 327, rfl⟩
abbrev main_call5_v2 : Ref sig .tc := ⟨.hbm, 328, rfl⟩
abbrev main_call5_v3 : Ref sig .tc := ⟨.hbm, 329, rfl⟩
abbrev main_call5_cst_1 : Ref sig .tc := ⟨.hbm, 330, rfl⟩
abbrev main_call5_call0_v0 : Ref sig .tc := ⟨.hbm, 331, rfl⟩
abbrev main_call5_call0_v1 : Ref sig .tc := ⟨.hbm, 332, rfl⟩
abbrev main_call5_v4 : Ref sig .tc := ⟨.hbm, 333, rfl⟩
abbrev main_call5_v5 : Ref sig .tc := ⟨.hbm, 334, rfl⟩
abbrev main_call5_cst_2 : Ref sig .tc := ⟨.hbm, 335, rfl⟩
abbrev main_call5_v6 : Ref sig .tc := ⟨.hbm, 336, rfl⟩
abbrev main_call5_v7 : Ref sig .tc := ⟨.hbm, 337, rfl⟩
abbrev main_v219 : Ref sig .tc := ⟨.hbm, 338, rfl⟩
abbrev main_v220 : Ref sig .tc := ⟨.hbm, 339, rfl⟩
abbrev main_v221 : Ref sig .tc := ⟨.hbm, 340, rfl⟩
abbrev main_v222 : Ref sig .tc := ⟨.hbm, 341, rfl⟩
abbrev main_v223 : Ref sig .tc := ⟨.hbm, 342, rfl⟩
abbrev main_cst_49 : Ref sig .tc := ⟨.hbm, 343, rfl⟩
abbrev main_v224 : Ref sig .tc := ⟨.hbm, 344, rfl⟩
abbrev main_v225 : Ref sig .tc := ⟨.hbm, 345, rfl⟩
abbrev main_cst_50 : Ref sig .tc := ⟨.hbm, 346, rfl⟩
abbrev main_v226 : Ref sig .tc := ⟨.hbm, 347, rfl⟩
abbrev main_v227 : Ref sig .tc := ⟨.hbm, 348, rfl⟩
abbrev main_v228 : Ref sig .tc := ⟨.hbm, 349, rfl⟩
abbrev main_v229 : Ref sig .tc := ⟨.hbm, 350, rfl⟩
abbrev main_v230 : Ref sig .tc := ⟨.hbm, 351, rfl⟩
abbrev main_cst_51 : Ref sig .tc := ⟨.hbm, 352, rfl⟩
abbrev main_v231 : Ref sig .tc := ⟨.hbm, 353, rfl⟩
abbrev main_v232 : Ref sig .tc := ⟨.hbm, 354, rfl⟩
abbrev main_cst_52 : Ref sig .tc := ⟨.hbm, 355, rfl⟩
abbrev main_v233 : Ref sig .tc := ⟨.hbm, 356, rfl⟩
abbrev main_v234 : Ref sig .tc := ⟨.hbm, 357, rfl⟩
abbrev main_v235 : Ref sig .tc := ⟨.hbm, 358, rfl⟩
abbrev main_v236 : Ref sig .tc := ⟨.hbm, 359, rfl⟩
abbrev main_cst_53 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_call6_cst : Ref sig .tc := ⟨.hbm, 372, rfl⟩
abbrev main_call6_v0 : Ref sig .tc := ⟨.hbm, 373, rfl⟩
abbrev main_call6_v1 : Ref sig .tc := ⟨.hbm, 374, rfl⟩
abbrev main_call6_cst_0 : Ref sig .tc := ⟨.hbm, 375, rfl⟩
abbrev main_call6_v2 : Ref sig .tc := ⟨.hbm, 376, rfl⟩
abbrev main_call6_v3 : Ref sig .tc := ⟨.hbm, 377, rfl⟩
abbrev main_call6_cst_1 : Ref sig .tc := ⟨.hbm, 378, rfl⟩
abbrev main_call6_call0_v0 : Ref sig .tc := ⟨.hbm, 379, rfl⟩
abbrev main_call6_call0_v1 : Ref sig .tc := ⟨.hbm, 380, rfl⟩
abbrev main_call6_v4 : Ref sig .tc := ⟨.hbm, 381, rfl⟩
abbrev main_call6_v5 : Ref sig .tc := ⟨.hbm, 382, rfl⟩
abbrev main_call6_cst_2 : Ref sig .tc := ⟨.hbm, 383, rfl⟩
abbrev main_call6_v6 : Ref sig .tc := ⟨.hbm, 384, rfl⟩
abbrev main_call6_v7 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_v251 : Ref sig .tc := ⟨.hbm, 389, rfl⟩
abbrev main_v252 : Ref sig .tc := ⟨.hbm, 390, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S500_S1x500_1 : S500.BroadcastsInDim S1x500 (![1] : Fin 1 → Fin S1x500.rank)
  bcast_S1x500_S50000x500_0_1 : S1x500.BroadcastsInDim S50000x500 (![0, 1] : Fin 2 → Fin S50000x500.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  dot_S50000x64_S64x500_S50000x500_1_0_0_1_n_n_wf : DotDims.WF S50000x64 S64x500 S50000x500 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x500_S50000x500_1_0_0_1_n_n : DotDims S50000x64 S64x500 S50000x500 where
  lhsContracting := [1]
  rhsContracting := [0]
  lhsNonContracting := [0]
  rhsNonContracting := [1]
  lhsBatch := []
  rhsBatch := []
  wf := dot_S50000x64_S64x500_S50000x500_1_0_0_1_n_n_wf

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic

def dotRow {K : ℕ} (row col : Fin K → EReal) : EReal := ∑ k : Fin K, row k * col k

def lnEntry {f : ℕ} (n ε : EReal) (x b g be : Fin f → EReal) (j : Fin f) : EReal :=
  (x j + b j - Ideal.div (∑ k : Fin f, (x k + b k)) n)
    * Ideal.rsqrt (Ideal.div (∑ k : Fin f, (x k + b k - Ideal.div (∑ k' : Fin f, (x k' + b k')) n)
        * (x k + b k - Ideal.div (∑ k' : Fin f, (x k' + b k')) n)) n + ε)
    * g j + be j

def elu (h : EReal) : EReal := if 0 < h then h else Ideal.exp h - 1

def lnElu {f : ℕ} (n ε : EReal) (x b g be : Fin f → EReal) (j : Fin f) : EReal :=
  elu (lnEntry n ε x b g be j)

end Cert.Spec

end
-- ==== Proof.KFold.lean ====
import proofs.«140160_j6760278524492_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

local macro "stretch_step " ops:ident b:term : tactic => `(tactic|
  refine (StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))).trans ?_)

local macro "region_step " h:ident b:term : tactic => `(tactic|
  refine (($h:ident _ _ _ $b (by decide)).trans ?_))

local macro "from_launch " b:term : tactic => `(tactic| (
  stretch_step hostOps0_2 $b
  stretch_step hostOps0_1 $b
  stretch_step hostOps0 $b
  rfl))

local macro "walk_4 " b:term : tactic => `(tactic| (
  region_step W4_of_ne $b
  from_launch $b))

local macro "walk_7 " b:term : tactic => `(tactic| (
  region_step W7_of_ne $b
  region_step W6_of_ne $b
  stretch_step hostOps1 $b
  walk_4 $b))

local macro "walk_10 " b:term : tactic => `(tactic| (
  region_step W10_of_ne $b
  region_step W9_of_ne $b
  stretch_step hostOps3 $b
  walk_7 $b))

local macro "walk_12 " b:term : tactic => `(tactic| (
  region_step W12_of_ne $b
  stretch_step hostOps5 $b
  walk_10 $b))

local macro "walk_14 " b:term : tactic => `(tactic| (
  region_step W14_of_ne $b
  stretch_step hostOps6 $b
  walk_12 $b))

theorem V3_main_arg0 (c : Dev nD) : V3 m ρ c main_arg0 = m ((c : Thread nD τ).loc main_arg0) := by
  from_launch main_arg0

theorem V3_main_arg2 (c : Dev nD) : V3 m ρ c main_arg2 = m ((c : Thread nD τ).loc main_arg2) := by
  from_launch main_arg2

theorem V6_main_arg6 (c : Dev nD) : V6 m ρ c main_arg6 = m ((c : Thread nD τ).loc main_arg6) := by
  region_step W6_of_ne main_arg6
  stretch_step hostOps1 main_arg6
  walk_4 main_arg6

theorem V9_main_arg10 (c : Dev nD) : V9 m ρ c main_arg10 = m ((c : Thread nD τ).loc main_arg10) := by
  region_step W9_of_ne main_arg10
  stretch_step hostOps3 main_arg10
  walk_7 main_arg10

theorem V13_main_arg14 (c : Dev nD) : V13 m ρ c main_arg14 = m ((c : Thread nD τ).loc main_arg14) := by
  stretch_step hostOps6 main_arg14
  walk_12 main_arg14

theorem W4_main_v30 (c : Dev nD) : W4 m ρ c (Proc.devRef .tc main_v30) = (dat0 (V3 m ρ) c).arrAt 2 cfg0.N :=
  W4_arr m ρ c 2

theorem W5_main_v30 (c : Dev nD) : W5 m ρ c (Proc.devRef .tc main_v30) = W4 m ρ c (Proc.devRef .tc main_v30) := by
  stretch_step hostOps1 main_v30
  rfl
theorem W5_main_v30_arr (c : Dev nD) : W5 m ρ c (Proc.devRef .tc main_v30) = (dat0 (V3 m ρ) c).arrAt 2 cfg0.N :=
  (W5_main_v30 m ρ c).trans (W4_main_v30 m ρ c)

theorem V6_main_v51 (c : Dev nD) : V6 m ρ c main_v51 = (dat1 (V5 m ρ) c).arrAt 4 cfg1.N :=
  W6_arr m ρ c 4

theorem W7_main_v52 (c : Dev nD) : W7 m ρ c (Proc.devRef .tc main_v52) = (dat2 (V6 m ρ) c).arrAt 2 cfg2.N :=
  W7_arr m ρ c 2

theorem W8_main_v52 (c : Dev nD) : W8 m ρ c (Proc.devRef .tc main_v52) = W7 m ρ c (Proc.devRef .tc main_v52) := by
  stretch_step hostOps3 main_v52
  rfl
theorem W8_main_v52_arr (c : Dev nD) : W8 m ρ c (Proc.devRef .tc main_v52) = (dat2 (V6 m ρ) c).arrAt 2 cfg2.N :=
  (W8_main_v52 m ρ c).trans (W7_main_v52 m ρ c)

theorem V9_main_v73 (c : Dev nD) : V9 m ρ c main_v73 = (dat3 (V8 m ρ) c).arrAt 4 cfg3.N :=
  W9_arr m ρ c 4

theorem W10_main_v74 (c : Dev nD) : W10 m ρ c (Proc.devRef .tc main_v74) = (dat4 (V9 m ρ) c).arrAt 2 cfg4.N :=
  W10_arr m ρ c 2

theorem W11_main_v74 (c : Dev nD) : W11 m ρ c (Proc.devRef .tc main_v74) = W10 m ρ c (Proc.devRef .tc main_v74) := by
  stretch_step hostOps5 main_v74
  rfl
theorem W11_main_v74_arr (c : Dev nD) : W11 m ρ c (Proc.devRef .tc main_v74) = (dat4 (V9 m ρ) c).arrAt 2 cfg4.N :=
  (W11_main_v74 m ρ c).trans (W10_main_v74 m ρ c)

theorem W12_main_v95 (c : Dev nD) : W12 m ρ c (Proc.devRef .tc main_v95) = (dat5 (V11 m ρ) c).arrAt 4 cfg5.N :=
  W12_arr m ρ c 4

theorem V13_main_v95 (c : Dev nD) : V13 m ρ c main_v95 = W12 m ρ c (Proc.devRef .tc main_v95) := by
  stretch_step hostOps6 main_v95
  rfl
theorem V13_main_v95_arr (c : Dev nD) : V13 m ρ c main_v95 = (dat5 (V11 m ρ) c).arrAt 4 cfg5.N :=
  (V13_main_v95 m ρ c).trans (W12_main_v95 m ρ c)

theorem W14_main_v99 (c : Dev nD) : W14 m ρ c (Proc.devRef .tc main_v99) = (dat6 (V13 m ρ) c).arrAt 5 cfg6.N :=
  W14_arr m ρ c 5

theorem V19_main_v99 (c : Dev nD) : V19 m ρ c main_v99 = W14 m ρ c (Proc.devRef .tc main_v99) := by
  stretch_step hostOps7_4 main_v99
  stretch_step hostOps7_3 main_v99
  stretch_step hostOps7_2 main_v99
  stretch_step hostOps7_1 main_v99
  stretch_step hostOps7 main_v99
  rfl
theorem V19_main_v99_arr (c : Dev nD) : V19 m ρ c main_v99 = (dat6 (V13 m ρ) c).arrAt 5 cfg6.N :=
  (V19_main_v99 m ρ c).trans (W14_main_v99 m ρ c)

theorem W20_main_v103 (c : Dev nD) : W20 m ρ c (Proc.devRef .tc main_v103) = (dat7 (V19 m ρ) c).arrAt 3 cfg7.N :=
  W20_arr m ρ c 3

theorem W4_main_v1 (c : Dev nD) : W4 m ρ c (Proc.devRef .tc main_v1) = W3 m ρ c (Proc.devRef .tc main_v1) :=
  W4_of_ne m ρ c main_v1 (by decide)
theorem W7_main_v1 (c : Dev nD) : W7 m ρ c (Proc.devRef .tc main_v1) = W3 m ρ c (Proc.devRef .tc main_v1) := by
  region_step W7_of_ne main_v1
  region_step W6_of_ne main_v1
  stretch_step hostOps1 main_v1
  exact W4_main_v1 m ρ c
theorem W10_main_v1 (c : Dev nD) : W10 m ρ c (Proc.devRef .tc main_v1) = W3 m ρ c (Proc.devRef .tc main_v1) := by
  region_step W10_of_ne main_v1
  region_step W9_of_ne main_v1
  stretch_step hostOps3 main_v1
  exact W7_main_v1 m ρ c

theorem W4_main_v3 (c : Dev nD) : W4 m ρ c (Proc.devRef .tc main_v3) = W3 m ρ c (Proc.devRef .tc main_v3) :=
  W4_of_ne m ρ c main_v3 (by decide)
theorem W7_main_v3 (c : Dev nD) : W7 m ρ c (Proc.devRef .tc main_v3) = W3 m ρ c (Proc.devRef .tc main_v3) := by
  region_step W7_of_ne main_v3
  region_step W6_of_ne main_v3
  stretch_step hostOps1 main_v3
  exact W4_main_v3 m ρ c
theorem W10_main_v3 (c : Dev nD) : W10 m ρ c (Proc.devRef .tc main_v3) = W3 m ρ c (Proc.devRef .tc main_v3) := by
  region_step W10_of_ne main_v3
  region_step W9_of_ne main_v3
  stretch_step hostOps3 main_v3
  exact W7_main_v3 m ρ c

theorem W4_main_v28 (c : Dev nD) : W4 m ρ c (Proc.devRef .tc main_v28) = W3 m ρ c (Proc.devRef .tc main_v28) :=
  W4_of_ne m ρ c main_v28 (by decide)
theorem W7_main_v28 (c : Dev nD) : W7 m ρ c (Proc.devRef .tc main_v28) = W3 m ρ c (Proc.devRef .tc main_v28) := by
  region_step W7_of_ne main_v28
  region_step W6_of_ne main_v28
  stretch_step hostOps1 main_v28
  exact W4_main_v28 m ρ c
theorem W10_main_v28 (c : Dev nD) : W10 m ρ c (Proc.devRef .tc main_v28) = W3 m ρ c (Proc.devRef .tc main_v28) := by
  region_step W10_of_ne main_v28
  region_step W9_of_ne main_v28
  stretch_step hostOps3 main_v28
  exact W7_main_v28 m ρ c

theorem W4_main_v29 (c : Dev nD) : W4 m ρ c (Proc.devRef .tc main_v29) = W3 m ρ c (Proc.devRef .tc main_v29) :=
  W4_of_ne m ρ c main_v29 (by decide)
theorem W7_main_v29 (c : Dev nD) : W7 m ρ c (Proc.devRef .tc main_v29) = W3 m ρ c (Proc.devRef .tc main_v29) := by
  region_step W7_of_ne main_v29
  region_step W6_of_ne main_v29
  stretch_step hostOps1 main_v29
  exact W4_main_v29 m ρ c
theorem W10_main_v29 (c : Dev nD) : W10 m ρ c (Proc.devRef .tc main_v29) = W3 m ρ c (Proc.devRef .tc main_v29) := by
  region_step W10_of_ne main_v29
  region_step W9_of_ne main_v29
  stretch_step hostOps3 main_v29
  exact W7_main_v29 m ρ c

theorem W4_main_arg3 (c : Dev nD) : W4 m ρ c (Proc.devRef .tc main_arg3) = m ((c : Thread nD τ).loc main_arg3) := by
  walk_4 main_arg3
theorem W4_main_arg4 (c : Dev nD) : W4 m ρ c (Proc.devRef .tc main_arg4) = m ((c : Thread nD τ).loc main_arg4) := by
  walk_4 main_arg4
theorem W4_main_arg5 (c : Dev nD) : W4 m ρ c (Proc.devRef .tc main_arg5) = m ((c : Thread nD τ).loc main_arg5) := by
  walk_4 main_arg5

theorem W7_main_arg7 (c : Dev nD) : W7 m ρ c (Proc.devRef .tc main_arg7) = m ((c : Thread nD τ).loc main_arg7) := by
  walk_7 main_arg7
theorem W7_main_arg8 (c : Dev nD) : W7 m ρ c (Proc.devRef .tc main_arg8) = m ((c : Thread nD τ).loc main_arg8) := by
  walk_7 main_arg8
theorem W7_main_arg9 (c : Dev nD) : W7 m ρ c (Proc.devRef .tc main_arg9) = m ((c : Thread nD τ).loc main_arg9) := by
  walk_7 main_arg9

theorem W10_main_arg11 (c : Dev nD) : W10 m ρ c (Proc.devRef .tc main_arg11) = m ((c : Thread nD τ).loc main_arg11) := by
  walk_10 main_arg11
theorem W10_main_arg12 (c : Dev nD) : W10 m ρ c (Proc.devRef .tc main_arg12) = m ((c : Thread nD τ).loc main_arg12) := by
  walk_10 main_arg12
theorem W10_main_arg13 (c : Dev nD) : W10 m ρ c (Proc.devRef .tc main_arg13) = m ((c : Thread nD τ).loc main_arg13) := by
  walk_10 main_arg13

theorem W12_main_arg15 (c : Dev nD) : W12 m ρ c (Proc.devRef .tc main_arg15) = m ((c : Thread nD τ).loc main_arg15) := by
  walk_12 main_arg15
theorem W12_main_arg16 (c : Dev nD) : W12 m ρ c (Proc.devRef .tc main_arg16) = m ((c : Thread nD τ).loc main_arg16) := by
  walk_12 main_arg16
theorem W12_main_arg17 (c : Dev nD) : W12 m ρ c (Proc.devRef .tc main_arg17) = m ((c : Thread nD τ).loc main_arg17) := by
  walk_12 main_arg17

theorem W14_main_arg18 (c : Dev nD) : W14 m ρ c (Proc.devRef .tc main_arg18) = m ((c : Thread nD τ).loc main_arg18) := by
  walk_14 main_arg18
theorem W15_main_arg18 (c : Dev nD) : W15 m ρ c (Proc.devRef .tc main_arg18) = m ((c : Thread nD τ).loc main_arg18) := by
  stretch_step hostOps7 main_arg18
  exact W14_main_arg18 m ρ c
theorem W16_main_arg18 (c : Dev nD) : W16 m ρ c (Proc.devRef .tc main_arg18) = m ((c : Thread nD τ).loc main_arg18) := by
  stretch_step hostOps7_1 main_arg18
  exact W15_main_arg18 m ρ c
theorem W17_main_arg18 (c : Dev nD) : W17 m ρ c (Proc.devRef .tc main_arg18) = m ((c : Thread nD τ).loc main_arg18) := by
  stretch_step hostOps7_2 main_arg18
  exact W16_main_arg18 m ρ c
theorem W18_main_arg18 (c : Dev nD) : W18 m ρ c (Proc.devRef .tc main_arg18) = m ((c : Thread nD τ).loc main_arg18) := by
  stretch_step hostOps7_3 main_arg18
  exact W17_main_arg18 m ρ c

theorem W14_main_arg19 (c : Dev nD) : W14 m ρ c (Proc.devRef .tc main_arg19) = m ((c : Thread nD τ).loc main_arg19) := by
  walk_14 main_arg19
theorem W15_main_arg19 (c : Dev nD) : W15 m ρ c (Proc.devRef .tc main_arg19) = m ((c : Thread nD τ).loc main_arg19) := by
  stretch_step hostOps7 main_arg19
  exact W14_main_arg19 m ρ c
theorem W16_main_arg19 (c : Dev nD) : W16 m ρ c (Proc.devRef .tc main_arg19) = m ((c : Thread nD τ).loc main_arg19) := by
  stretch_step hostOps7_1 main_arg19
  exact W15_main_arg19 m ρ c
theorem W17_main_arg19 (c : Dev nD) : W17 m ρ c (Proc.devRef .tc main_arg19) = m ((c : Thread nD τ).loc main_arg19) := by
  stretch_step hostOps7_2 main_arg19
  exact W16_main_arg19 m ρ c
theorem W18_main_arg19 (c : Dev nD) : W18 m ρ c (Proc.devRef .tc main_arg19) = m ((c : Thread nD τ).loc main_arg19) := by
  stretch_step hostOps7_3 main_arg19
  exact W17_main_arg19 m ρ c

end Cert.KernelIdeal.Fold

end
-- ==== Proof.KDot.lean ====
import Idealize.ShloMosaic.Lib.StackMember

noncomputable section

namespace Cert.KernelIdeal.Dot

open Idealize.ShloMosaic Idealize.ShloMosaic.ValueIdx Idealize.ShloMosaic.StackMember

variable {M K N : ℕ} {φ₁ φ₂ : FTy} (D : DotDims ⟨2, ![M, K]⟩ ⟨2, ![K, N]⟩ ⟨2, ![M, N]⟩) (hD : D = DotDims.plain M K N)
  (prec : Option ContractPrecision) (x : FVec Ideal ⟨2, ![M, K]⟩ φ₁) (w : FVec Ideal ⟨2, ![K, N]⟩ φ₂) (p : Fin M) (q : Fin N)
include hD

/-- A record with the plain product's axis lists is the plain product, whose entry is the row-by-column sum. -/
theorem dotGeneral_apply : Host.dotGeneral D prec x w (ix2 p q) = ∑ k : Fin K, x (ix2 p k) * w (ix2 k q) := by
  rw [hD]
  exact dotGeneral_plain_apply prec x w p q

/-- A product into a zero accumulator is the product without one. -/
theorem matmul_zero_apply :
    matmul D prec x w (constant ⟨2, ![M, N]⟩ .f32 0x00000000#32) (ix2 p q) = ∑ k : Fin K, x (ix2 p k) * w (ix2 k q) := by
  rw [matmul_zero_eq_dotGeneral]
  exact dotGeneral_apply D hD prec x w p q

end Cert.KernelIdeal.Dot

end
-- ==== Proof.KRows.lean ====
import Idealize.ShloMosaic.Lib.Pipeline.Value

namespace Cert.Rows

theorem zero_offsets : (![0, 0] : Fin 2 → Nat) = fun _ => 0 := funext fun a => by fin_cases a <;> rfl

/-- Ten blocks of 5000 rows, each as wide as the array, tile its 50000 rows: row `r` lies in block `r / 5000`. -/
theorem rows_cover {N : ℕ} (hN : N = 10) (idx : Fin N → Fin 2 → ℕ) (sz i : Fin 2 → ℕ)
    (hidx : ∀ t, idx t 0 = t.val ∧ idx t 1 = 0) (hs : sz 0 = 5000) (h0 : i 0 < 50000) (h1 : i 1 < sz 1) :
    ∃ t : Fin N, ∀ a : Fin 2, idx t a * sz a ≤ i a ∧ i a < idx t a * sz a + sz a := by
  subst hN
  obtain ⟨e0, e1⟩ := hidx ⟨i 0 / 5000, by omega⟩
  refine ⟨⟨i 0 / 5000, by omega⟩, fun a => ?_⟩
  match a with
  | ⟨0, _⟩ =>
    show idx _ 0 * sz 0 ≤ i 0 ∧ i 0 < idx _ 0 * sz 0 + sz 0
    rw [e0, hs]
    show i 0 / 5000 * 5000 ≤ i 0 ∧ i 0 < i 0 / 5000 * 5000 + 5000
    omega
  | ⟨1, _⟩ =>
    show idx _ 1 * sz 1 ≤ i 1 ∧ i 1 < idx _ 1 * sz 1 + sz 1
    rw [e1]
    omega

end Cert.Rows
-- ==== Proof.MM0.lean ====
import proofs.«140160_j6760278524492_1_alg».proof.Proof.Gen.KernelIdeal.Frame
import proofs.«140160_j6760278524492_1_alg».proof.Proof.Spec
import proofs.«140160_j6760278524492_1_alg».proof.Proof.KDot
import proofs.«140160_j6760278524492_1_alg».proof.Proof.KRows

noncomputable section

namespace Cert.KernelIdeal.MM0

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Entry `y` of the product of two blocks: row `y₀` of the left against column `y₁` of the right. -/
theorem block_product_at (x : FVec Ideal S5000x128 .f32) (w : FVec Ideal S128x128 .f32) (y : S5000x128.Idx) :
    k0_pay1 (F := Ideal) x w y = ∑ k : Fin 128, x (ix2 (y 0 : Fin 5000) k) * w (ix2 k (y 1 : Fin 128)) :=
  (congrArg _ (eq_ix2 y)).trans (Dot.matmul_zero_apply dot_S5000x128_S128x128_S5000x128_1_0_0_1_n_n rfl none _ _ _ _)

theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of block `t` is row `5000·t + r` of the array. -/
theorem xblk_row (c : Dev nD) (t : Fin cfg0.N) (y : S5000x128.Idx) (i : S50000x128.Idx)
    (h0 : (i 0).val = t.val * 5000 + (y 0).val) (h1 : (i 1).val = (y 1).val) :
    iblk0 V c 0 t y = V c main_arg0 i := by
  obtain ⟨e0, e1, -⟩ := block_index t
  refine congrArg (V c main_arg0) (funext fun a => Fin.ext ?_)
  match a with
  | ⟨0, _⟩ => exact (win0_0.rect_emb_val t y 0).trans (by rw [e0]; exact h0.symm)
  | ⟨1, _⟩ => exact (win0_0.rect_emb_val_of_index_zero t 1 e1 y).trans h1.symm

theorem wblk_whole (c : Dev nD) (t : Fin cfg0.N) (y : S128x128.Idx) :
    iblk0 V c 1 t y = V c main_arg2 y := by
  obtain ⟨-, -, e0, e1, -⟩ := block_index t
  refine congrArg (V c main_arg2) (funext fun a => Fin.ext ?_)
  match a with
  | ⟨0, _⟩ => exact win0_1.rect_emb_val_of_index_zero t 0 e0 y
  | ⟨1, _⟩ => exact win0_1.rect_emb_val_of_index_zero t 1 e1 y

abbrev prod (c : Dev nD) : FVec Ideal S50000x128 .f32 := fun i =>
  Cert.Spec.dotRow (fun k : Fin 128 => V c main_arg0 (ix2 (i 0 : Fin 50000) k)) (fun k : Fin 128 => V c main_arg2 (ix2 k (i 1 : Fin 128)))

/-- The rows agree term by term, and the weight is the same. -/
theorem block_entry (c : Dev nD) (t : Fin cfg0.N) (y : S5000x128.Idx) (i : S50000x128.Idx)
    (h0 : (i 0).val = t.val * 5000 + (y 0).val) (h1 : (i 1).val = (y 1).val) :
    k0_pay1 (F := Ideal) (iblk0 V c 0 t) (iblk0 V c 1 t) y = prod V c i := by
  rw [block_product_at, show (y 1 : Fin 128) = i 1 from Fin.ext h1.symm]
  refine Finset.sum_congr rfl fun k _ => ?_
  rw [xblk_row V c t (ix2 (y 0 : Fin 5000) k) (ix2 (i 0 : Fin 50000) k) h0 rfl, wblk_whole V c t]

theorem flushed_block (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero Rows.zero_offsets]
  simp only [View.ld_unit_zero (S := S5000x128) Rows.zero_offsets, View.ld_unit_zero (S := S128x128) Rows.zero_offsets]
  funext y
  obtain ⟨-, -, -, -, e0, e1⟩ := block_index t
  exact block_entry V c t y _ ((win0_2.rect_emb_val t y 0).trans (by rw [e0]; rfl)) (win0_2.rect_emb_val_of_index_zero t 1 e1 y)

theorem rows_covered (i : S50000x128.Idx) : ∃ t : Fin cfg0.N, (cfg0.win 2).flush t = true ∧ i ∈ ((cfg0.win 2).blk t).view.set := by
  obtain ⟨t, ht⟩ := Rows.rows_cover N_0 win0_2.index S5000x128.size (fun a => (i a).val)
    (fun t => (block_index t).2.2.2.2) rfl (i 0).isLt (i 1).isLt
  refine ⟨t, flush0_2 t, ?_⟩
  show i ∈ ((View.whole main_v30).slice (win0_2.rect t)).set
  rw [View.set_slice_whole, Rect.mem_set_unit]
  exact ht

theorem out_apply (c : Dev nD) (i : Fin 50000) (j : Fin 128) :
    (Gen.dat0 (F := Ideal) V c).arrAt 2 cfg0.N (ix2 i j)
      = Cert.Spec.dotRow (fun k : Fin 128 => V c main_arg0 (ix2 i k)) (fun k : Fin 128 => V c main_arg2 (ix2 k j)) := by
  rw [(dat0 V c).arrAt_eq_of_cover 2 (prod V c) (fun t _ => flushed_block V c t) rows_covered]

end Cert.KernelIdeal.MM0

end
-- ==== Proof.RefDot.lean ====
import proofs.«140160_j6760278524492_1_alg».proof.ReferenceIdeal
import proofs.«140160_j6760278524492_1_alg».proof.Proof.Gen.ReferenceIdeal
import proofs.«140160_j6760278524492_1_alg».proof.Proof.Spec
import proofs.«140160_j6760278524492_1_alg».proof.Proof.KDot

noncomputable section

namespace Cert.ReferenceIdeal.Stage

open Cert.ReferenceIdeal Idealize.ShloMosaic Idealize.ShloMosaic.ValueIdx

theorem dot_S50000x128_S128x128_S50000x128_1_0_0_1_n_n_apply (X : FVec Ideal S50000x128 .f32) (W : FVec Ideal S128x128 .f32)
    (i : Fin 50000) (j : Fin 128) :
    Host.dotGeneral (F := Ideal) dot_S50000x128_S128x128_S50000x128_1_0_0_1_n_n none X W (ix2 i j)
      = Cert.Spec.dotRow (fun k : Fin 128 => X (ix2 i k)) (fun k : Fin 128 => W (ix2 k j)) :=
  Cert.KernelIdeal.Dot.dotGeneral_apply dot_S50000x128_S128x128_S50000x128_1_0_0_1_n_n rfl none X W i j

theorem dot_S50000x128_S128x256_S50000x256_1_0_0_1_n_n_apply (X : FVec Ideal S50000x128 .f32) (W : FVec Ideal S128x256 .f32)
    (i : Fin 50000) (j : Fin 256) :
    Host.dotGeneral (F := Ideal) dot_S50000x128_S128x256_S50000x256_1_0_0_1_n_n none X W (ix2 i j)
      = Cert.Spec.dotRow (fun k : Fin 128 => X (ix2 i k)) (fun k : Fin 128 => W (ix2 k j)) :=
  Cert.KernelIdeal.Dot.dotGeneral_apply dot_S50000x128_S128x256_S50000x256_1_0_0_1_n_n rfl none X W i j

theorem dot_S50000x256_S256x128_S50000x128_1_0_0_1_n_n_apply (X : FVec Ideal S50000x256 .f32) (W : FVec Ideal S256x128 .f32)
    (i : Fin 50000) (j : Fin 128) :
    Host.dotGeneral (F := Ideal) dot_S50000x256_S256x128_S50000x128_1_0_0_1_n_n none X W (ix2 i j)
      = Cert.Spec.dotRow (fun k : Fin 256 => X (ix2 i k)) (fun k : Fin 256 => W (ix2 k j)) :=
  Cert.KernelIdeal.Dot.dotGeneral_apply dot_S50000x256_S256x128_S50000x128_1_0_0_1_n_n rfl none X W i j

theorem dot_S50000x128_S128x64_S50000x64_1_0_0_1_n_n_apply (X : FVec Ideal S50000x128 .f32) (W : FVec Ideal S128x64 .f32)
    (i : Fin 50000) (j : Fin 64) :
    Host.dotGeneral (F := Ideal) dot_S50000x128_S128x64_S50000x64_1_0_0_1_n_n none X W (ix2 i j)
      = Cert.Spec.dotRow (fun k : Fin 128 => X (ix2 i k)) (fun k : Fin 128 => W (ix2 k j)) :=
  Cert.KernelIdeal.Dot.dotGeneral_apply dot_S50000x128_S128x64_S50000x64_1_0_0_1_n_n rfl none X W i j

theorem dot_S50000x64_S64x500_S50000x500_1_0_0_1_n_n_apply (X : FVec Ideal S50000x64 .f32) (W : FVec Ideal S64x500 .f32)
    (i : Fin 50000) (j : Fin 500) :
    Host.dotGeneral (F := Ideal) dot_S50000x64_S64x500_S50000x500_1_0_0_1_n_n none X W (ix2 i j)
      = Cert.Spec.dotRow (fun k : Fin 64 => X (ix2 i k)) (fun k : Fin 64 => W (ix2 k j)) :=
  Cert.KernelIdeal.Dot.dotGeneral_apply dot_S50000x64_S64x500_S50000x500_1_0_0_1_n_n rfl none X W i j

end Cert.ReferenceIdeal.Stage

end
-- ==== Proof.HostSpec.lean ====
import proofs.«140160_j6760278524492_1_alg».proof.Proof.Gen.KernelIdeal.Launch
import proofs.«140160_j6760278524492_1_alg».proof.KernelIdeal
import Idealize.ShloMosaic.Lib.StableHlo.Run
import Idealize.ShloMosaic.Lib.Pipeline.Frame
import Idealize.ShloMosaic.PureOps.Ideal

noncomputable section

namespace Cert.KernelIdeal.HostSpec

open Idealize.ShloMosaic Idealize.SL.Sem
open Cert.KernelIdeal Cert.KernelIdeal.Gen

def srcIdx (e : IVec S2x800000 32) : IVec S800000 32 :=
  shapeCast S800000 (extractStridedSlice S1x800000 ![0, 0] e slices_S2x800000_S1x800000_0_0) shapeCasts_S1x800000_S800000

def dstIdx (e : IVec S2x800000 32) : IVec S800000 32 :=
  shapeCast S800000 (extractStridedSlice S1x800000 ![1, 0] e slices_S2x800000_S1x800000_1_0) shapeCasts_S1x800000_S800000

def wrapIdx (i : IVec S800000 32) : IVec S800000 32 :=
  select (cmpi .slt i (broadcastInDim S800000 ![] bcast_S_S800000 (constantI S_ 32 0#32)))
    (addi i (broadcastInDim S800000 ![] bcast_S_S800000 (constantI S_ 32 50000#32)))
    i

def col {α : Type} (v : S800000.Idx → α) : S800000x1.Idx → α :=
  broadcastInDim S800000x1 ![0] bcast_S800000_S800000x1_0 v

def deg (e : IVec S2x800000 32) : FVec Ideal S50000 .f32 :=
  addf
    (Host.scatterAdd scatter_S50000_S800000x1_S800000_n_0_0_1
      (broadcastInDim S50000 ![] bcast_S_S50000 (constant (F := Ideal) S_ .f32 0x00000000#32))
      (col (dstIdx e))
      (broadcastInDim S800000 ![] bcast_S_S800000 (constant (F := Ideal) S_ .f32 0x3F800000#32)))
    (broadcastInDim S50000 ![] bcast_S_S50000 (constant (F := Ideal) S_ .f32 0x3F800000#32))

def dinv (e : IVec S2x800000 32) : FVec Ideal S50000 .f32 :=
  select
    (cmpf .ogt (deg e) (broadcastInDim S50000 ![] bcast_S_S50000 (constant (F := Ideal) S_ .f32 0x00000000#32)))
    (Host.rsqrt (deg e))
    (broadcastInDim S50000 ![] bcast_S_S50000 (id (constant (F := Ideal) S_ .f32 0x00000000#32)))

def coef (e : IVec S2x800000 32) : FVec Ideal S800000 .f32 :=
  mulf
    (Host.gather gather_S50000_S800000x1_S800000_n_0_n_n_0_1_1 (dinv e) (col (wrapIdx (srcIdx e))))
    (Host.gather gather_S50000_S800000x1_S800000_n_0_n_n_0_1_1 (dinv e) (col (wrapIdx (dstIdx e))))

def dinvSq (e : IVec S2x800000 32) : FVec Ideal S50000 .f32 :=
  mulf (dinv e) (dinv e)

def agg128 (h : FVec Ideal S50000x128 .f32) (src dst : IVec S800000 32) (cf : FVec Ideal S800000 .f32)
    (dsq : FVec Ideal S50000 .f32) : FVec Ideal S50000x128 .f32 :=
  addf
    (Host.scatterAdd scatter_S50000x128_S800000x1_S800000x128_1_0_0_1
      (broadcastInDim S50000x128 ![] bcast_S_S50000x128 (constant (F := Ideal) S_ .f32 0x00000000#32))
      (col dst)
      (mulf
        (Host.gather gather_S50000x128_S800000x1_S800000x128_1_0_n_n_0_1_1128 h (col (wrapIdx src)))
        (broadcastInDim S800000x128 ![0, 1] bcast_S800000x1_S800000x128_0_1 (col cf))))
    (mulf h
      (broadcastInDim S50000x128 ![0, 1] bcast_S50000x1_S50000x128_0_1
        (broadcastInDim S50000x1 ![0] bcast_S50000_S50000x1_0 dsq)))

def agg256 (h : FVec Ideal S50000x256 .f32) (src dst : IVec S800000 32) (cf : FVec Ideal S800000 .f32)
    (dsq : FVec Ideal S50000 .f32) : FVec Ideal S50000x256 .f32 :=
  addf
    (Host.scatterAdd scatter_S50000x256_S800000x1_S800000x256_1_0_0_1
      (broadcastInDim S50000x256 ![] bcast_S_S50000x256 (constant (F := Ideal) S_ .f32 0x00000000#32))
      (col dst)
      (mulf
        (Host.gather gather_S50000x256_S800000x1_S800000x256_1_0_n_n_0_1_1256 h (col (wrapIdx src)))
        (broadcastInDim S800000x256 ![0, 1] bcast_S800000x1_S800000x256_0_1 (col cf))))
    (mulf h
      (broadcastInDim S50000x256 ![0, 1] bcast_S50000x1_S50000x256_0_1
        (broadcastInDim S50000x1 ![0] bcast_S50000_S50000x1_0 dsq)))

variable (W V : Valuation τ sig (Elt Ideal))

theorem s0_v1 : StableHlo.after (hostOps0 (F := Ideal)) W (Proc.devRef .tc main_v1) = srcIdx (W (Proc.devRef .tc main_arg1)) := by
  after_results_simp
  rfl

theorem s0_v3 : StableHlo.after (hostOps0 (F := Ideal)) W (Proc.devRef .tc main_v3) = dstIdx (W (Proc.devRef .tc main_arg1)) := by
  after_results_simp
  rfl

theorem s0_v11 : StableHlo.after (hostOps0 (F := Ideal)) W (Proc.devRef .tc main_v11) =
    (cmpf .ogt (deg (W (Proc.devRef .tc main_arg1))) (broadcastInDim S50000 ![] bcast_S_S50000 (constant (F := Ideal) S_ .f32 0x00000000#32)) :
      IVec S50000 1) := by
  after_results_simp
  rfl

theorem s0_v12 : StableHlo.after (hostOps0 (F := Ideal)) W (Proc.devRef .tc main_v12) =
    (Host.rsqrt (deg (W (Proc.devRef .tc main_arg1))) : FVec Ideal S50000 .f32) := by
  after_results_simp
  rfl

theorem s0_cst3 : StableHlo.after (hostOps0 (F := Ideal)) W (Proc.devRef .tc main_cst_3) =
    (constant (F := Ideal) S_ .f32 0x00000000#32 : FVec Ideal S_ .f32) := by
  after_results_simp

theorem s1_v13 : StableHlo.after (hostOps0_1 (F := Ideal)) V (Proc.devRef .tc main_v13) =
    (select (V (Proc.devRef .tc main_v11)) (V (Proc.devRef .tc main_v12))
      (broadcastInDim S50000 ![] bcast_S_S50000 (id (V (Proc.devRef .tc main_cst_3)))) : FVec Ideal S50000 .f32) := by
  after_results_simp
  rfl

theorem s1_v1 : StableHlo.after (hostOps0_1 (F := Ideal)) V (Proc.devRef .tc main_v1) = V (Proc.devRef .tc main_v1) := by
  after_results_simp

theorem s1_v3 : StableHlo.after (hostOps0_1 (F := Ideal)) V (Proc.devRef .tc main_v3) = V (Proc.devRef .tc main_v3) := by
  after_results_simp

theorem s2_v28 : StableHlo.after (hostOps0_2 (F := Ideal)) V (Proc.devRef .tc main_v28) =
    (mulf
      (Host.gather gather_S50000_S800000x1_S800000_n_0_n_n_0_1_1 (V (Proc.devRef .tc main_v13)) (col (wrapIdx (V (Proc.devRef .tc main_v1)))))
      (Host.gather gather_S50000_S800000x1_S800000_n_0_n_n_0_1_1 (V (Proc.devRef .tc main_v13)) (col (wrapIdx (V (Proc.devRef .tc main_v3))))) :
        FVec Ideal S800000 .f32) := by
  after_results_simp
  rfl

theorem s2_v29 : StableHlo.after (hostOps0_2 (F := Ideal)) V (Proc.devRef .tc main_v29) =
    (mulf (V (Proc.devRef .tc main_v13)) (V (Proc.devRef .tc main_v13)) : FVec Ideal S50000 .f32) := by
  after_results_simp

theorem s2_v1 : StableHlo.after (hostOps0_2 (F := Ideal)) V (Proc.devRef .tc main_v1) = V (Proc.devRef .tc main_v1) := by
  after_results_simp

theorem s2_v3 : StableHlo.after (hostOps0_2 (F := Ideal)) V (Proc.devRef .tc main_v3) = V (Proc.devRef .tc main_v3) := by
  after_results_simp

theorem s2_v13 : StableHlo.after (hostOps0_2 (F := Ideal)) V (Proc.devRef .tc main_v13) = V (Proc.devRef .tc main_v13) := by
  after_results_simp

theorem prelude_v1 :
    StableHlo.after (hostOps0_2 (F := Ideal)) (StableHlo.after (hostOps0_1 (F := Ideal)) (StableHlo.after (hostOps0 (F := Ideal)) W))
        (Proc.devRef .tc main_v1) = srcIdx (W (Proc.devRef .tc main_arg1)) := by
  rw [s2_v1, s1_v1, s0_v1]

theorem prelude_v3 :
    StableHlo.after (hostOps0_2 (F := Ideal)) (StableHlo.after (hostOps0_1 (F := Ideal)) (StableHlo.after (hostOps0 (F := Ideal)) W))
        (Proc.devRef .tc main_v3) = dstIdx (W (Proc.devRef .tc main_arg1)) := by
  rw [s2_v3, s1_v3, s0_v3]

theorem prelude_v13 :
    StableHlo.after (hostOps0_2 (F := Ideal)) (StableHlo.after (hostOps0_1 (F := Ideal)) (StableHlo.after (hostOps0 (F := Ideal)) W))
        (Proc.devRef .tc main_v13) = dinv (W (Proc.devRef .tc main_arg1)) := by
  rw [s2_v13, s1_v13, s0_v11, s0_v12, s0_cst3]
  rfl

theorem prelude_v28 :
    StableHlo.after (hostOps0_2 (F := Ideal)) (StableHlo.after (hostOps0_1 (F := Ideal)) (StableHlo.after (hostOps0 (F := Ideal)) W))
        (Proc.devRef .tc main_v28) = coef (W (Proc.devRef .tc main_arg1)) := by
  rw [s2_v28, s1_v1, s1_v3, s0_v1, s0_v3, s1_v13, s0_v11, s0_v12, s0_cst3]
  rfl

theorem prelude_v29 :
    StableHlo.after (hostOps0_2 (F := Ideal)) (StableHlo.after (hostOps0_1 (F := Ideal)) (StableHlo.after (hostOps0 (F := Ideal)) W))
        (Proc.devRef .tc main_v29) = dinvSq (W (Proc.devRef .tc main_arg1)) := by
  rw [s2_v29, s1_v13, s0_v11, s0_v12, s0_cst3]
  rfl

theorem prelude_append_v1 : StableHlo.after ((hostOps0 (F := Ideal)) ++ hostOps0_1 ++ hostOps0_2) W (Proc.devRef .tc main_v1) = srcIdx (W (Proc.devRef .tc main_arg1)) := by
  rw [StableHlo.after_append, StableHlo.after_append]; exact prelude_v1 W

theorem prelude_append_v3 : StableHlo.after ((hostOps0 (F := Ideal)) ++ hostOps0_1 ++ hostOps0_2) W (Proc.devRef .tc main_v3) = dstIdx (W (Proc.devRef .tc main_arg1)) := by
  rw [StableHlo.after_append, StableHlo.after_append]; exact prelude_v3 W

theorem prelude_append_v13 : StableHlo.after ((hostOps0 (F := Ideal)) ++ hostOps0_1 ++ hostOps0_2) W (Proc.devRef .tc main_v13) = dinv (W (Proc.devRef .tc main_arg1)) := by
  rw [StableHlo.after_append, StableHlo.after_append]; exact prelude_v13 W

theorem prelude_append_v28 : StableHlo.after ((hostOps0 (F := Ideal)) ++ hostOps0_1 ++ hostOps0_2) W (Proc.devRef .tc main_v28) = coef (W (Proc.devRef .tc main_arg1)) := by
  rw [StableHlo.after_append, StableHlo.after_append]; exact prelude_v28 W

theorem prelude_append_v29 : StableHlo.after ((hostOps0 (F := Ideal)) ++ hostOps0_1 ++ hostOps0_2) W (Proc.devRef .tc main_v29) = dinvSq (W (Proc.devRef .tc main_arg1)) := by
  rw [StableHlo.after_append, StableHlo.after_append]; exact prelude_v29 W

theorem after_hostOps1_v47 (W : Valuation τ sig (Elt Ideal)) :
    StableHlo.after (hostOps1 (F := Ideal)) W (Proc.devRef .tc main_v47) =
      agg128 (W (Proc.devRef .tc main_v30)) (W (Proc.devRef .tc main_v1)) (W (Proc.devRef .tc main_v3))
        (W (Proc.devRef .tc main_v28)) (W (Proc.devRef .tc main_v29)) := by
  after_results_simp
  rfl

theorem after_hostOps3_v69 (W : Valuation τ sig (Elt Ideal)) :
    StableHlo.after (hostOps3 (F := Ideal)) W (Proc.devRef .tc main_v69) =
      agg256 (W (Proc.devRef .tc main_v52)) (W (Proc.devRef .tc main_v1)) (W (Proc.devRef .tc main_v3))
        (W (Proc.devRef .tc main_v28)) (W (Proc.devRef .tc main_v29)) := by
  after_results_simp
  rfl

theorem after_hostOps5_v91 (W : Valuation τ sig (Elt Ideal)) :
    StableHlo.after (hostOps5 (F := Ideal)) W (Proc.devRef .tc main_v91) =
      agg128 (W (Proc.devRef .tc main_v74)) (W (Proc.devRef .tc main_v1)) (W (Proc.devRef .tc main_v3))
        (W (Proc.devRef .tc main_v28)) (W (Proc.devRef .tc main_v29)) := by
  after_results_simp
  rfl

end Cert.KernelIdeal.HostSpec

end
-- ==== Proof.HostSmall.lean ====
import proofs.«140160_j6760278524492_1_alg».proof.Proof.Gen.KernelIdeal.Launch
import Idealize.ShloMosaic.Lib.StableHlo.Run
import Idealize.ShloMosaic.Lib.ValueIdx
import Idealize.ShloMosaic.Lib.ValueLayout
import Idealize.ShloMosaic.Lib.KernelVsHost

noncomputable section

namespace Cert.KernelIdeal.HostSmall

open Cert.KernelIdeal Cert.KernelIdeal.Gen
open Idealize.ShloMosaic Idealize.ShloMosaic.TcCoe Idealize.ShloMosaic.ValueIdx

theorem hostOps1_main_v48 (W : Valuation τ sig (Elt Ideal)) (k : Fin 128) :
    (StableHlo.after (hostOps1 (F := Ideal)) W (Proc.devRef .tc main_v48) (ix2 (0 : Fin 1) k) : EReal)
      = W (Proc.devRef .tc main_arg3) (ix1 k) := by
  after_results; exact shapeCast_a_1a_apply _ _ 0 k

theorem hostOps1_main_v49 (W : Valuation τ sig (Elt Ideal)) (k : Fin 128) :
    (StableHlo.after (hostOps1 (F := Ideal)) W (Proc.devRef .tc main_v49) (ix2 (0 : Fin 1) k) : EReal)
      = W (Proc.devRef .tc main_arg4) (ix1 k) := by
  after_results; exact shapeCast_a_1a_apply _ _ 0 k

theorem hostOps1_main_v50 (W : Valuation τ sig (Elt Ideal)) (k : Fin 128) :
    (StableHlo.after (hostOps1 (F := Ideal)) W (Proc.devRef .tc main_v50) (ix2 (0 : Fin 1) k) : EReal)
      = W (Proc.devRef .tc main_arg5) (ix1 k) := by
  after_results; exact shapeCast_a_1a_apply _ _ 0 k

theorem hostOps3_main_v70 (W : Valuation τ sig (Elt Ideal)) (k : Fin 256) :
    (StableHlo.after (hostOps3 (F := Ideal)) W (Proc.devRef .tc main_v70) (ix2 (0 : Fin 1) k) : EReal)
      = W (Proc.devRef .tc main_arg7) (ix1 k) := by
  after_results; exact shapeCast_a_1a_apply _ _ 0 k

theorem hostOps3_main_v71 (W : Valuation τ sig (Elt Ideal)) (k : Fin 256) :
    (StableHlo.after (hostOps3 (F := Ideal)) W (Proc.devRef .tc main_v71) (ix2 (0 : Fin 1) k) : EReal)
      = W (Proc.devRef .tc main_arg8) (ix1 k) := by
  after_results; exact shapeCast_a_1a_apply _ _ 0 k

theorem hostOps3_main_v72 (W : Valuation τ sig (Elt Ideal)) (k : Fin 256) :
    (StableHlo.after (hostOps3 (F := Ideal)) W (Proc.devRef .tc main_v72) (ix2 (0 : Fin 1) k) : EReal)
      = W (Proc.devRef .tc main_arg9) (ix1 k) := by
  after_results; exact shapeCast_a_1a_apply _ _ 0 k

theorem hostOps5_main_v92 (W : Valuation τ sig (Elt Ideal)) (k : Fin 128) :
    (StableHlo.after (hostOps5 (F := Ideal)) W (Proc.devRef .tc main_v92) (ix2 (0 : Fin 1) k) : EReal)
      = W (Proc.devRef .tc main_arg11) (ix1 k) := by
  after_results; exact shapeCast_a_1a_apply _ _ 0 k

theorem hostOps5_main_v93 (W : Valuation τ sig (Elt Ideal)) (k : Fin 128) :
    (StableHlo.after (hostOps5 (F := Ideal)) W (Proc.devRef .tc main_v93) (ix2 (0 : Fin 1) k) : EReal)
      = W (Proc.devRef .tc main_arg12) (ix1 k) := by
  after_results; exact shapeCast_a_1a_apply _ _ 0 k

theorem hostOps5_main_v94 (W : Valuation τ sig (Elt Ideal)) (k : Fin 128) :
    (StableHlo.after (hostOps5 (F := Ideal)) W (Proc.devRef .tc main_v94) (ix2 (0 : Fin 1) k) : EReal)
      = W (Proc.devRef .tc main_arg13) (ix1 k) := by
  after_results; exact shapeCast_a_1a_apply _ _ 0 k

theorem hostOps6_main_v96 (W : Valuation τ sig (Elt Ideal)) (k : Fin 64) :
    (StableHlo.after (hostOps6 (F := Ideal)) W (Proc.devRef .tc main_v96) (ix2 (0 : Fin 1) k) : EReal)
      = W (Proc.devRef .tc main_arg15) (ix1 k) := by
  after_results; exact shapeCast_a_1a_apply _ _ 0 k

theorem hostOps6_main_v97 (W : Valuation τ sig (Elt Ideal)) (k : Fin 64) :
    (StableHlo.after (hostOps6 (F := Ideal)) W (Proc.devRef .tc main_v97) (ix2 (0 : Fin 1) k) : EReal)
      = W (Proc.devRef .tc main_arg16) (ix1 k) := by
  after_results; exact shapeCast_a_1a_apply _ _ 0 k

theorem hostOps6_main_v98 (W : Valuation τ sig (Elt Ideal)) (k : Fin 64) :
    (StableHlo.after (hostOps6 (F := Ideal)) W (Proc.devRef .tc main_v98) (ix2 (0 : Fin 1) k) : EReal)
      = W (Proc.devRef .tc main_arg17) (ix1 k) := by
  after_results; exact shapeCast_a_1a_apply _ _ 0 k

theorem hostOps6_main_v95 (W : Valuation τ sig (Elt Ideal)) :
    StableHlo.after (hostOps6 (F := Ideal)) W (Proc.devRef .tc main_v95) = W (Proc.devRef .tc main_v95) := by
  after_results
theorem hostOps6_main_arg14 (W : Valuation τ sig (Elt Ideal)) :
    StableHlo.after (hostOps6 (F := Ideal)) W (Proc.devRef .tc main_arg14) = W (Proc.devRef .tc main_arg14) := by
  after_results

abbrev afterPads (W : Valuation τ sig (Elt Ideal)) : Valuation τ sig (Elt Ideal) :=
  StableHlo.after (hostOps7_4 (F := Ideal)) (StableHlo.after (hostOps7_3 (F := Ideal)) (StableHlo.after (hostOps7_2 (F := Ideal))
    (StableHlo.after (hostOps7_1 (F := Ideal)) (StableHlo.after (hostOps7 (F := Ideal)) W))))

theorem afterPads_main_v100 (W : Valuation τ sig (Elt Ideal)) (l : Fin 64) (j : Fin 512) :
    (afterPads W (Proc.devRef .tc main_v100) (ix2 l j) : EReal)
      = if h : j.val < 500 then (W (Proc.devRef .tc main_arg18) (ix2 l (⟨j.val, h⟩ : Fin 500)) : EReal) else (0 : EReal) := by
  after_results
  simp only [StableHlo.TRef.ofBuf, StableHlo.TRef.toBuf, cast_eq]
  by_cases h : j.val < 500
  · rw [dif_pos h]
    exact pad_apply_of_inside _ _ _ _ _ pads_S64x500_S64x512_000_0120 h_S_ _ (ix2 l (⟨j.val, h⟩ : Fin 500)) (fun a => by
      match a with
      | ⟨0, _⟩ => show l.val = 0 + l.val * (0 + 1); omega
      | ⟨1, _⟩ => show j.val = 0 + j.val * (0 + 1); omega)
  · rw [dif_neg h]
    exact (pad_apply_of_not_inside _ _ _ _ _ pads_S64x500_S64x512_000_0120 h_S_ _ (1 : Fin 2) (by
      show ¬ (0 ≤ j.val ∧ (j.val - 0) % (0 + 1) = 0 ∧ (j.val - 0) / (0 + 1) < 500)
      omega)).trans (sitofp_zero (φ := .f32))

theorem afterPads_main_v102 (W : Valuation τ sig (Elt Ideal)) (j : Fin 512) :
    (afterPads W (Proc.devRef .tc main_v102) (ix2 (0 : Fin 1) j) : EReal)
      = if h : j.val < 500 then (W (Proc.devRef .tc main_arg19) (ix1 (⟨j.val, h⟩ : Fin 500)) : EReal) else (0 : EReal) := by
  after_results
  simp only [StableHlo.TRef.ofBuf, StableHlo.TRef.toBuf, cast_eq]
  refine (shapeCast_a_1a_apply _ shapeCasts_S512_S1x512 0 j).trans ?_
  by_cases h : j.val < 500
  · rw [dif_pos h]
    exact pad_apply_of_inside _ _ _ _ _ pads_S500_S512_0120 h_S_ _ (ix1 (⟨j.val, h⟩ : Fin 500)) (fun a => by
      match a with
      | ⟨0, _⟩ => show j.val = 0 + j.val * (0 + 1); omega)
  · rw [dif_neg h]
    exact (pad_apply_of_not_inside _ _ _ _ _ pads_S500_S512_0120 h_S_ _ (0 : Fin 1) (by
      show ¬ (0 ≤ j.val ∧ (j.val - 0) % (0 + 1) = 0 ∧ (j.val - 0) / (0 + 1) < 500)
      omega)).trans (sitofp_zero (φ := .f32))

theorem afterPads_main_v99 (W : Valuation τ sig (Elt Ideal)) :
    afterPads W (Proc.devRef .tc main_v99) = W (Proc.devRef .tc main_v99) := by
  after_results

theorem hostOps8_main_v104 (W : Valuation τ sig (Elt Ideal)) (i : Fin 50000) (j : Fin 500) :
    (StableHlo.after (hostOps8 (F := Ideal)) W (Proc.devRef .tc main_v104) (ix2 i j) : EReal)
      = W (Proc.devRef .tc main_v103) (ix2 i (⟨j.val, by omega⟩ : Fin 512)) := by
  after_results
  exact slice2_axis1_apply 0 _ slices_S50000x512_S50000x500_0_0 i j _ (Nat.zero_add _).symm

end Cert.KernelIdeal.HostSmall
-- ==== Proof.Fin7.lean ====
import proofs.«140160_j6760278524492_1_alg».proof.Proof.Gen.KernelIdeal.Frame
import proofs.«140160_j6760278524492_1_alg».proof.Proof.Spec
import proofs.«140160_j6760278524492_1_alg».proof.Proof.KDot
import proofs.«140160_j6760278524492_1_alg».proof.Proof.KRows

noncomputable section

namespace Cert.KernelIdeal.Fin7

open Cert.KernelIdeal Cert.KernelIdeal.Gen
open Idealize.ShloMosaic Idealize.ShloMosaic.TcCoe Idealize.ShloMosaic.ValueIdx Idealize.SL.Sem
open Idealize.ShloMosaic.Pipeline (Dat)

/-- Entry `(p, q)`: row `p` of the left block against column `q` of the right, plus entry `q` of the bias row. -/
theorem pay_apply (x0 : Vec Ideal S5000x64 .f32) (x1 : Vec Ideal S64x512 .f32) (x2 : Vec Ideal S1x512 .f32)
    (p : Fin 5000) (q : Fin 512) :
    k7_pay1 (F := Ideal) x0 x1 x2 (ix2 p q) = (∑ l : Fin 64, x0 (ix2 p l) * x1 (ix2 l q)) + x2 (ix2 0 q) := by
  unfold k7_pay1
  simp only [shapeCast_self]
  rw [addf_apply]
  refine congrArg₂ (· + ·) (Dot.matmul_zero_apply dot_S5000x64_S64x512_S5000x512_1_0_0_1_n_n rfl none _ _ p q) ?_
  exact broadcastTo_apply x2 broadcasts_S1x512_S5000x512 (ix2 p q) (ix2 0 q) (fun a => by
    match a with
    | ⟨0, _⟩ => rfl
    | ⟨1, _⟩ => rfl)

variable (V : (c : Dev nD) → (b : Ref sig .tc) → Buf (Elt Ideal) ((c : Thread nD τ).loc b))

def G (x : Vec Ideal S50000x64 .f32) (w : Vec Ideal S64x512 .f32) (b : Vec Ideal S1x512 .f32) : Vec Ideal S50000x512 .f32 :=
  fun i => Cert.Spec.dotRow (fun l : Fin 64 => x (ix2 (i 0) l)) (fun l : Fin 64 => w (ix2 l (i 1))) + b (ix2 0 (i 1))

theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Row `p` of block `t` is row `5000·t + p` of the array. -/
theorem xblk_apply (c : Dev nD) (t : Fin cfg7.N) (p : Fin 5000) (l : Fin 64) (r : Fin 50000)
    (hr : r.val = t.val * 5000 + p.val) : iblk7 V c 0 t (ix2 p l) = V c main_v99 (ix2 r l) := by
  obtain ⟨e0, e1, -⟩ := idx_facts t
  refine congrArg (V c main_v99) (funext fun a => Fin.ext ?_)
  match a with
  | ⟨0, _⟩ => exact (win7_0.rect_emb_val t (ix2 p l) 0).trans (by rw [e0]; exact hr.symm)
  | ⟨1, _⟩ => exact win7_0.rect_emb_val_of_index_zero t 1 e1 (ix2 p l)

theorem wblk_apply (c : Dev nD) (t : Fin cfg7.N) (y : S64x512.Idx) : iblk7 V c 1 t y = V c main_v100 y := by
  obtain ⟨-, -, e0, e1, -⟩ := idx_facts t
  refine congrArg (V c main_v100) (funext fun a => Fin.ext ?_)
  match a with
  | ⟨0, _⟩ => exact win7_1.rect_emb_val_of_index_zero t 0 e0 y
  | ⟨1, _⟩ => exact win7_1.rect_emb_val_of_index_zero t 1 e1 y

theorem bblk_apply (c : Dev nD) (t : Fin cfg7.N) (y : S1x512.Idx) : iblk7 V c 2 t y = V c main_v102 y := by
  obtain ⟨-, -, -, -, e0, e1, -⟩ := idx_facts t
  refine congrArg (V c main_v102) (funext fun a => Fin.ext ?_)
  match a with
  | ⟨0, _⟩ => exact win7_2.rect_emb_val_of_index_zero t 0 e0 y
  | ⟨1, _⟩ => exact win7_2.rect_emb_val_of_index_zero t 1 e1 y

theorem flushed_eq (c : Dev nD) (t : Fin cfg7.N) :
    (dat7 (F := Ideal) V c).flushed 3 t
      = ((cfg7.win 3).blk t).view.read (Elt Ideal) (G (V c main_v99) (V c main_v100) (V c main_v102)) := by
  show (cfg7.win 3).cut (grid7.coords t) ((dat7 (F := Ideal) V c).after 3 t) = _
  rw [after7_3]
  unfold out7_3
  rw [View.canon_unit_zero Rows.zero_offsets]
  simp only [View.ld_unit_zero (S := S5000x64) Rows.zero_offsets, View.ld_unit_zero (S := S64x512) Rows.zero_offsets,
    View.ld_unit_zero (S := S1x512) Rows.zero_offsets]
  obtain ⟨-, -, -, -, -, -, e0, e1⟩ := idx_facts t
  refine funext fun (j : S5000x512.Idx) => ?_
  obtain ⟨p, q, rfl⟩ : ∃ (p : Fin 5000) (q : Fin 512), j = ix2 p q := ⟨j 0, j 1, eq_ix2 j⟩
  have hr : t.val * 5000 + p.val < 50000 := by have := t.isLt; have := p.isLt; have hN : cfg7.N = 10 := N_7; omega
  have hE : ((cfg7.win 3).blk t).view.emb (ix2 p q) = ix2 (⟨t.val * 5000 + p.val, hr⟩ : Fin 50000) q :=
    funext fun a => Fin.ext (by
      match a with
      | ⟨0, _⟩ => exact (win7_3.rect_emb_val t (ix2 p q) 0).trans (by rw [e0]; rfl)
      | ⟨1, _⟩ => exact win7_3.rect_emb_val_of_index_zero t 1 e1 (ix2 p q))
  show k7_pay1 (F := Ideal) (iblk7 V c 0 t) (iblk7 V c 1 t) (iblk7 V c 2 t) (ix2 p q)
    = G (V c main_v99) (V c main_v100) (V c main_v102) (((cfg7.win 3).blk t).view.emb (ix2 p q))
  rw [hE]
  refine (pay_apply _ _ _ p q).trans (congrArg₂ (· + ·) (Finset.sum_congr rfl fun l _ => ?_) (bblk_apply V c t _))
  exact congrArg₂ (· * ·) (xblk_apply V c t p l ⟨t.val * 5000 + p.val, hr⟩ rfl) (wblk_apply V c t _)

theorem cover (i : S50000x512.Idx) :
    ∃ t : Fin cfg7.N, (cfg7.win 3).flush t = true ∧ i ∈ ((cfg7.win 3).blk t).view.set := by
  obtain ⟨t, ht⟩ := Rows.rows_cover N_7 win7_3.index S5000x512.size (fun a => (i a).val)
    (fun t => (idx_facts t).2.2.2.2.2.2) rfl (i 0).isLt (i 1).isLt
  refine ⟨t, flush7_3 t, ?_⟩
  show i ∈ ((View.whole main_v103).slice (win7_3.rect t)).set
  rw [View.set_slice_whole, Rect.mem_set_unit]
  exact ht

theorem out_apply (c : Dev nD) (i : Fin 50000) (j : Fin 512) :
    (dat7 (F := Ideal) V c).arrAt 3 cfg7.N (ix2 i j)
      = Cert.Spec.dotRow (fun l : Fin 64 => V c main_v99 (ix2 i l)) (fun l => V c main_v100 (ix2 l j))
        + V c main_v102 (ix2 0 j) := by
  rw [(dat7 (F := Ideal) V c).arrAt_eq_of_cover 3 _ (fun t _ => flushed_eq V c t) cover]
  rfl

end Cert.KernelIdeal.Fin7

end
-- ==== Proof.MM2.lean ====
import proofs.«140160_j6760278524492_1_alg».proof.Proof.Gen.KernelIdeal.Frame
import proofs.«140160_j6760278524492_1_alg».proof.Proof.Spec
import proofs.«140160_j6760278524492_1_alg».proof.Proof.KDot
import proofs.«140160_j6760278524492_1_alg».proof.Proof.KRows

noncomputable section

namespace Cert.KernelIdeal.MM2

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Entry `y` of the product of two blocks: row `y₀` of the left against column `y₁` of the right. -/
theorem block_product_at (x : FVec Ideal S5000x128 .f32) (w : FVec Ideal S128x256 .f32) (y : S5000x256.Idx) :
    k2_pay1 (F := Ideal) x w y = ∑ k : Fin 128, x (ix2 (y 0 : Fin 5000) k) * w (ix2 k (y 1 : Fin 256)) := by
  unfold k2_pay1
  rw [shapeCast_self]
  exact (congrArg _ (eq_ix2 y)).trans (Dot.matmul_zero_apply dot_S5000x128_S128x256_S5000x256_1_0_0_1_n_n rfl none _ _ _ _)

theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `r` of block `t` is row `5000·t + r` of the array. -/
theorem xblk_row (c : Dev nD) (t : Fin cfg2.N) (y : S5000x128.Idx) (i : S50000x128.Idx)
    (h0 : (i 0).val = t.val * 5000 + (y 0).val) (h1 : (i 1).val = (y 1).val) :
    iblk2 V c 0 t y = V c main_v51 i := by
  obtain ⟨e0, e1, -⟩ := block_index t
  refine congrArg (V c main_v51) (funext fun a => Fin.ext ?_)
  match a with
  | ⟨0, _⟩ => exact (win2_0.rect_emb_val t y 0).trans (by rw [e0]; exact h0.symm)
  | ⟨1, _⟩ => exact (win2_0.rect_emb_val_of_index_zero t 1 e1 y).trans h1.symm

theorem wblk_whole (c : Dev nD) (t : Fin cfg2.N) (y : S128x256.Idx) :
    iblk2 V c 1 t y = V c main_arg6 y := by
  obtain ⟨-, -, e0, e1, -⟩ := block_index t
  refine congrArg (V c main_arg6) (funext fun a => Fin.ext ?_)
  match a with
  | ⟨0, _⟩ => exact win2_1.rect_emb_val_of_index_zero t 0 e0 y
  | ⟨1, _⟩ => exact win2_1.rect_emb_val_of_index_zero t 1 e1 y

abbrev prod (c : Dev nD) : FVec Ideal S50000x256 .f32 := fun i =>
  Cert.Spec.dotRow (fun k : Fin 128 => V c main_v51 (ix2 (i 0 : Fin 50000) k)) (fun k : Fin 128 => V c main_arg6 (ix2 k (i 1 : Fin 256)))

/-- The rows agree term by term, and the weight is the same. -/
theorem block_entry (c : Dev nD) (t : Fin cfg2.N) (y : S5000x256.Idx) (i : S50000x256.Idx)
    (h0 : (i 0).val = t.val * 5000 + (y 0).val) (h1 : (i 1).val = (y 1).val) :
    k2_pay1 (F := Ideal) (iblk2 V c 0 t) (iblk2 V c 1 t) y = prod V c i := by
  rw [block_product_at, show (y 1 : Fin 256) = i 1 from Fin.ext h1.symm]
  refine Finset.sum_congr rfl fun k _ => ?_
  rw [xblk_row V c t (ix2 (y 0 : Fin 5000) k) (ix2 (i 0 : Fin 50000) k) h0 rfl, wblk_whole V c t]

theorem flushed_block (c : Dev nD) (t : Fin cfg2.N) :
    (dat2 V c).flushed 2 t = ((cfg2.win 2).blk t).view.read (Elt Ideal) (prod V c) := by
  show (cfg2.win 2).cut (grid2.coords t) ((dat2 V c).after 2 t) = _
  rw [after2_2]
  unfold out2_2
  rw [View.canon_unit_zero Rows.zero_offsets]
  simp only [View.ld_unit_zero (S := S5000x128) Rows.zero_offsets, View.ld_unit_zero (S := S128x256) Rows.zero_offsets]
  funext y
  obtain ⟨-, -, -, -, e0, e1⟩ := block_index t
  exact block_entry V c t y _ ((win2_2.rect_emb_val t y 0).trans (by rw [e0]; rfl)) (win2_2.rect_emb_val_of_index_zero t 1 e1 y)

theorem rows_covered (i : S50000x256.Idx) : ∃ t : Fin cfg2.N, (cfg2.win 2).flush t = true ∧ i ∈ ((cfg2.win 2).blk t).view.set := by
  obtain ⟨t, ht⟩ := Rows.rows_cover N_2 win2_2.index S5000x256.size (fun a => (i a).val)
    (fun t => (block_index t).2.2.2.2) rfl (i 0).isLt (i 1).isLt
  refine ⟨t, flush2_2 t, ?_⟩
  show i ∈ ((View.whole main_v52).slice (win2_2.rect t)).set
  rw [View.set_slice_whole, Rect.mem_set_unit]
  exact ht

theorem out_apply (c : Dev nD) (i : Fin 50000) (j : Fin 256) :
    (Gen.dat2 (F := Ideal) V c).arrAt 2 cfg2.N (ix2 i j)
      = Cert.Spec.dotRow (fun k : Fin 128 => V c main_v51 (ix2 i k)) (fun k : Fin 128 => V c main_arg6 (ix2 k j)) := by
  rw [(dat2 V c).arrAt_eq_of_cover 2 (prod V c) (fun t _ => flushed_block V c t) rows_covered]

end Cert.KernelIdeal.MM2

end
-- ==== Proof.MM4.lean ====
import proofs.«140160_j6760278524492_1_alg».proof.Proof.Gen.KernelIdeal.Frame
import proofs.«140160_j6760278524492_1_alg».proof.Proof.Spec
import proofs.«140160_j6760278524492_1_alg».proof.Proof.KDot
import proofs.«140160_j6760278524492_1_alg».proof.Proof.KRows

noncomputable section

namespace Cert.KernelIdeal.MM4

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Entry `y` of the product of two blocks: row `y₀` of the left against column `y₁` of the right. -/
theorem block_product_at (x : FVec Ideal S5000x256 .f32) (w : FVec Ideal S256x128 .f32) (y : S5000x128.Idx) :
    k4_pay1 (F := Ideal) x w y = ∑ k : Fin 256, x (ix2 (y 0 : Fin 5000) k) * w (ix2 k (y 1 : Fin 128)) := by
  unfold k4_pay1
  rw [shapeCast_self]
  exact (congrArg _ (eq_ix2 y)).trans (Dot.matmul_zero_apply dot_S5000x256_S256x128_S5000x128_1_0_0_1_n_n rfl none _ _ _ _)

theorem block_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row `r` of block `t` is row `5000·t + r` of the array. -/
theorem xblk_row (c : Dev nD) (t : Fin cfg4.N) (y : S5000x256.Idx) (i : S50000x256.Idx)
    (h0 : (i 0).val = t.val * 5000 + (y 0).val) (h1 : (i 1).val = (y 1).val) :
    iblk4 V c 0 t y = V c main_v73 i := by
  obtain ⟨e0, e1, -⟩ := block_index t
  refine congrArg (V c main_v73) (funext fun a => Fin.ext ?_)
  match a with
  | ⟨0, _⟩ => exact (win4_0.rect_emb_val t y 0).trans (by rw [e0]; exact h0.symm)
  | ⟨1, _⟩ => exact (win4_0.rect_emb_val_of_index_zero t 1 e1 y).trans h1.symm

theorem wblk_whole (c : Dev nD) (t : Fin cfg4.N) (y : S256x128.Idx) :
    iblk4 V c 1 t y = V c main_arg10 y := by
  obtain ⟨-, -, e0, e1, -⟩ := block_index t
  refine congrArg (V c main_arg10) (funext fun a => Fin.ext ?_)
  match a with
  | ⟨0, _⟩ => exact win4_1.rect_emb_val_of_index_zero t 0 e0 y
  | ⟨1, _⟩ => exact win4_1.rect_emb_val_of_index_zero t 1 e1 y

abbrev prod (c : Dev nD) : FVec Ideal S50000x128 .f32 := fun i =>
  Cert.Spec.dotRow (fun k : Fin 256 => V c main_v73 (ix2 (i 0 : Fin 50000) k)) (fun k : Fin 256 => V c main_arg10 (ix2 k (i 1 : Fin 128)))

/-- The rows agree term by term, and the weight is the same. -/
theorem block_entry (c : Dev nD) (t : Fin cfg4.N) (y : S5000x128.Idx) (i : S50000x128.Idx)
    (h0 : (i 0).val = t.val * 5000 + (y 0).val) (h1 : (i 1).val = (y 1).val) :
    k4_pay1 (F := Ideal) (iblk4 V c 0 t) (iblk4 V c 1 t) y = prod V c i := by
  rw [block_product_at, show (y 1 : Fin 128) = i 1 from Fin.ext h1.symm]
  refine Finset.sum_congr rfl fun k _ => ?_
  rw [xblk_row V c t (ix2 (y 0 : Fin 5000) k) (ix2 (i 0 : Fin 50000) k) h0 rfl, wblk_whole V c t]

theorem flushed_block (c : Dev nD) (t : Fin cfg4.N) :
    (dat4 V c).flushed 2 t = ((cfg4.win 2).blk t).view.read (Elt Ideal) (prod V c) := by
  show (cfg4.win 2).cut (grid4.coords t) ((dat4 V c).after 2 t) = _
  rw [after4_2]
  unfold out4_2
  rw [View.canon_unit_zero Rows.zero_offsets]
  simp only [View.ld_unit_zero (S := S5000x256) Rows.zero_offsets, View.ld_unit_zero (S := S256x128) Rows.zero_offsets]
  funext y
  obtain ⟨-, -, -, -, e0, e1⟩ := block_index t
  exact block_entry V c t y _ ((win4_2.rect_emb_val t y 0).trans (by rw [e0]; rfl)) (win4_2.rect_emb_val_of_index_zero t 1 e1 y)

theorem rows_covered (i : S50000x128.Idx) : ∃ t : Fin cfg4.N, (cfg4.win 2).flush t = true ∧ i ∈ ((cfg4.win 2).blk t).view.set := by
  obtain ⟨t, ht⟩ := Rows.rows_cover N_4 win4_2.index S5000x128.size (fun a => (i a).val)
    (fun t => (block_index t).2.2.2.2) rfl (i 0).isLt (i 1).isLt
  refine ⟨t, flush4_2 t, ?_⟩
  show i ∈ ((View.whole main_v74).slice (win4_2.rect t)).set
  rw [View.set_slice_whole, Rect.mem_set_unit]
  exact ht

theorem out_apply (c : Dev nD) (i : Fin 50000) (j : Fin 128) :
    (Gen.dat4 (F := Ideal) V c).arrAt 2 cfg4.N (ix2 i j)
      = Cert.Spec.dotRow (fun k : Fin 256 => V c main_v73 (ix2 i k)) (fun k : Fin 256 => V c main_arg10 (ix2 k j)) := by
  rw [(dat4 V c).arrAt_eq_of_cover 2 (prod V c) (fun t _ => flushed_block V c t) rows_covered]

end Cert.KernelIdeal.MM4

end
-- ==== Proof.KArrMM.lean ====
import proofs.«140160_j6760278524492_1_alg».proof.Proof.Gen.KernelIdeal.Frame
import proofs.«140160_j6760278524492_1_alg».proof.Proof.Spec
import proofs.«140160_j6760278524492_1_alg».proof.Proof.MM2
import proofs.«140160_j6760278524492_1_alg».proof.Proof.MM4
import proofs.«140160_j6760278524492_1_alg».proof.Proof.RefDot
import Idealize.ShloMosaic.Lib.ValueIdx

noncomputable section

namespace Cert.KernelIdeal.Arr

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

/-- Entry by entry both sides are the same row-by-column sum. -/
theorem mm2_array (c : Dev nD) :
    ((dat2 (F := Ideal) V c).arrAt 2 cfg2.N : FVec Ideal S50000x256 .f32)
      = Host.dotGeneral (F := Ideal) (φ₁ := .f32) (φ₂ := .f32) Cert.ReferenceIdeal.dot_S50000x128_S128x256_S50000x256_1_0_0_1_n_n none
          (V c main_v51 : FVec Ideal S50000x128 .f32) (V c main_arg6 : FVec Ideal S128x256 .f32) := by
  funext y
  obtain ⟨i, j, rfl⟩ : ∃ (i : Fin 50000) (j : Fin 256), y = ix2 i j := ⟨y 0, y 1, eq_ix2 y⟩
  rw [MM2.out_apply V c i j, Cert.ReferenceIdeal.Stage.dot_S50000x128_S128x256_S50000x256_1_0_0_1_n_n_apply]

theorem mm4_array (c : Dev nD) :
    ((dat4 (F := Ideal) V c).arrAt 2 cfg4.N : FVec Ideal S50000x128 .f32)
      = Host.dotGeneral (F := Ideal) (φ₁ := .f32) (φ₂ := .f32) Cert.ReferenceIdeal.dot_S50000x256_S256x128_S50000x128_1_0_0_1_n_n none
          (V c main_v73 : FVec Ideal S50000x256 .f32) (V c main_arg10 : FVec Ideal S256x128 .f32) := by
  funext y
  obtain ⟨i, j, rfl⟩ : ∃ (i : Fin 50000) (j : Fin 128), y = ix2 i j := ⟨y 0, y 1, eq_ix2 y⟩
  rw [MM4.out_apply V c i j, Cert.ReferenceIdeal.Stage.dot_S50000x256_S256x128_S50000x128_1_0_0_1_n_n_apply]

end Cert.KernelIdeal.Arr

end
-- ==== Proof.KLnPay.lean ====
import proofs.«140160_j6760278524492_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.LnPay

open Idealize.ShloMosaic Idealize.ShloMosaic.TcCoe Idealize.SL.Sem
open Idealize.ShloMosaic.ValueIdx

-- Row-major position `i * 1 + 0` of `(i, 0)` is position `i` of the column read as a list.
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

-- A broadcast along the unit axis keeps the row coordinate and forgets the column.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The shape facts the stage's layout operations need, for `a` rows of width `d`. -/
structure Ev (a d : ℕ) : Prop where
  rr : (⟨2, ![1, d]⟩ : Shape).ShapeCasts ⟨2, ![1, d]⟩
  rb : (⟨2, ![1, d]⟩ : Shape).Broadcasts ⟨2, ![a, d]⟩
  red : (⟨2, ![a, d]⟩ : Shape).Reduces [1] ⟨1, ![a]⟩
  cc : (⟨1, ![a]⟩ : Shape).ShapeCasts ⟨2, ![a, 1]⟩
  cb : (⟨2, ![a, 1]⟩ : Shape).Broadcasts ⟨2, ![a, d]⟩

variable {a d : ℕ} (n : BitVec 32) (h : Ev a d)
  (v : FVec Ideal ⟨2, ![a, d]⟩ .f32) (x1 x2 x3 : FVec Ideal ⟨2, ![1, d]⟩ .f32)

def biased : FVec Ideal ⟨2, ![a, d]⟩ .f32 :=
  addf v (broadcastTo ⟨2, ![a, d]⟩ (shapeCast ⟨2, ![1, d]⟩ x1 h.rr) h.rb)

def rowMean (w : FVec Ideal ⟨2, ![a, d]⟩ .f32) : FVec Ideal ⟨2, ![a, 1]⟩ .f32 :=
  divf (shapeCast ⟨2, ![a, 1]⟩ (multiReduction (F := Ideal) .add [1] ⟨1, ![a]⟩ w 0x00000000#32 h.red (.inl rfl) rfl) h.cc)
    (broadcast ⟨2, ![a, 1]⟩ (Scalar.ofBits (F := Ideal) .f32 n))

def centred (w : FVec Ideal ⟨2, ![a, d]⟩ .f32) : FVec Ideal ⟨2, ![a, d]⟩ .f32 :=
  subf w (broadcastTo ⟨2, ![a, d]⟩ (rowMean n h w) h.cb)

def scale (w : FVec Ideal ⟨2, ![a, d]⟩ .f32) : FVec Ideal ⟨2, ![a, 1]⟩ .f32 :=
  rsqrt (addf (rowMean n h (mulf (centred n h w) (centred n h w)))
    (broadcast ⟨2, ![a, 1]⟩ (Scalar.ofBits (F := Ideal) .f32 0x3727C5AC#32)))

def normed : FVec Ideal ⟨2, ![a, d]⟩ .f32 :=
  addf (mulf (mulf (centred n h (biased h v x1)) (broadcastTo ⟨2, ![a, d]⟩ (scale n h (biased h v x1)) h.cb))
      (broadcastTo ⟨2, ![a, d]⟩ (shapeCast ⟨2, ![1, d]⟩ x2 h.rr) h.rb))
    (broadcastTo ⟨2, ![a, d]⟩ (shapeCast ⟨2, ![1, d]⟩ x3 h.rr) h.rb)

/-- The stage's value on the matrix `v`, the row length given as the word `n`. -/
def pay : FVec Ideal ⟨2, ![a, d]⟩ .f32 :=
  select (cmpf .ogt (normed n h v x1 x2 x3) (broadcast ⟨2, ![a, d]⟩ (Scalar.ofBits (F := Ideal) .f32 0x00000000#32)))
    (normed n h v x1 x2 x3)
    (subf (exp (normed n h v x1 x2 x3)) (broadcast ⟨2, ![a, d]⟩ (Scalar.ofBits (F := Ideal) .f32 0x3F800000#32)))

theorem biased_apply (p : Fin a) (k : Fin d) : biased h v x1 (ix2 p k) = v (ix2 p k) + x1 (ix2 (0 : Fin 1) k) := by
  unfold biased
  rw [addf_apply, shapeCast_self, broadcastTo_1b_ab_apply]

-- The sum along the second axis at row `p` adds the entries `(p, k)`.
theorem rowMean_apply (w : FVec Ideal ⟨2, ![a, d]⟩ .f32) (p : Fin a) (u : Fin 1) :
    rowMean n h w (ix2 p u) = Ideal.div (∑ k : Fin d, w (ix2 p k)) (Ideal.ofBits .f32 n) := by
  unfold rowMean
  rw [divf_apply, shapeCast_a_a1_apply]
  refine congrArg (fun s => Ideal.div s _) ((Ideal.multiReduction_add_single w 0x00000000#32 h.red (.inl rfl) rfl (ix1 p)).trans
    (Finset.sum_congr rfl fun k _ => congrArg w (funext fun i => Fin.ext ?_)))
  match i with
  | ⟨0, _⟩ => rfl
  | ⟨1, _⟩ => rfl

theorem centred_apply (w : FVec Ideal ⟨2, ![a, d]⟩ .f32) (p : Fin a) (q : Fin d) :
    centred n h w (ix2 p q) = w (ix2 p q) - Ideal.div (∑ k : Fin d, w (ix2 p k)) (Ideal.ofBits .f32 n) := by
  unfold centred
  rw [subf_apply, broadcastTo_a1_ab_apply, rowMean_apply]

theorem scale_apply (w : FVec Ideal ⟨2, ![a, d]⟩ .f32) (p : Fin a) (u : Fin 1) :
    scale n h w (ix2 p u) = Ideal.rsqrt (Ideal.div (∑ k : Fin d, centred n h w (ix2 p k) * centred n h w (ix2 p k))
        (Ideal.ofBits .f32 n) + Ideal.ofBits .f32 0x3727C5AC#32) := by
  unfold scale
  show Ideal.rsqrt (rowMean n h (mulf (centred n h w) (centred n h w)) (ix2 p u) + Ideal.ofBits .f32 0x3727C5AC#32) = _
  rw [rowMean_apply]
  rfl

theorem normed_apply (p : Fin a) (q : Fin d) :
    normed n h v x1 x2 x3 (ix2 p q)
      = Cert.Spec.lnEntry (Ideal.ofBits .f32 n) (Ideal.ofBits .f32 0x3727C5AC#32)
          (fun k : Fin d => v (ix2 p k)) (fun k => x1 (ix2 (0 : Fin 1) k)) (fun k => x2 (ix2 (0 : Fin 1) k))
          (fun k => x3 (ix2 (0 : Fin 1) k)) q := by
  unfold normed
  rw [addf_apply, mulf_apply, mulf_apply, broadcastTo_a1_ab_apply, scale_apply, broadcastTo_1b_ab_apply,
    broadcastTo_1b_ab_apply, shapeCast_self, shapeCast_self]
  unfold Cert.Spec.lnEntry
  simp only [centred_apply, biased_apply]

-- The comparison's bit is the truth value of `0 < h`.
theorem select_ogt_zero (h a b : EReal) : Scalar.select (Ideal.cmp .ogt h 0) a b = if 0 < h then a else b := by
  show Scalar.select (BitVec.ofBool (decide (0 < h))) a b = _
  by_cases hp : 0 < h
  · rw [decide_eq_true hp, if_pos hp]; exact select_one a b
  · rw [decide_eq_false hp, if_neg hp]; exact select_zero a b

/-- Entry `(p, q)` of the stage's value depends on row `p` of `v` alone: it is the specification's stage of that row. -/
theorem pay_apply (p : Fin a) (q : Fin d) :
    pay n h v x1 x2 x3 (ix2 p q)
      = Cert.Spec.lnElu (Ideal.ofBits .f32 n) (Ideal.ofBits .f32 0x3727C5AC#32)
          (fun k : Fin d => v (ix2 p k)) (fun k => x1 (ix2 (0 : Fin 1) k)) (fun k => x2 (ix2 (0 : Fin 1) k))
          (fun k => x3 (ix2 (0 : Fin 1) k)) q := by
  show Scalar.select (Ideal.cmp .ogt (normed n h v x1 x2 x3 (ix2 p q)) (Ideal.ofBits .f32 0x00000000#32))
      (normed n h v x1 x2 x3 (ix2 p q)) (Ideal.exp (normed n h v x1 x2 x3 (ix2 p q)) - Ideal.ofBits .f32 0x3F800000#32) = _
  rw [normed_apply, Ideal.ofBits_zero_f32, Ideal.ofBits_one_f32, select_ogt_zero]
  rfl

end Cert.KernelIdeal.LnPay

end
-- ==== Proof.LN1.lean ====
import proofs.«140160_j6760278524492_1_alg».proof.Proof.Gen.KernelIdeal.Frame
import proofs.«140160_j6760278524492_1_alg».proof.Proof.Gen.KernelIdeal.Skeleton
import proofs.«140160_j6760278524492_1_alg».proof.Proof.Gen.KernelIdeal.Points
import proofs.«140160_j6760278524492_1_alg».proof.Proof.Gen.KernelIdeal.Launch
import proofs.«140160_j6760278524492_1_alg».proof.Proof.KLnPay
import proofs.«140160_j6760278524492_1_alg».proof.Proof.KRows

noncomputable section

namespace Cert.KernelIdeal.LN1

open Cert.KernelIdeal Cert.KernelIdeal.Gen Idealize.ShloMosaic Idealize.ShloMosaic.TcCoe Idealize.SL.Sem
open Idealize.ShloMosaic.ValueIdx
open Idealize.ShloMosaic.Pipeline (Dat)

theorem ev : LnPay.Ev 5000 128 :=
  ⟨shapeCasts_S1x128_S1x128, broadcasts_S1x128_S5000x128, reduces_S5000x128_S5000, shapeCasts_S5000_S5000x1,
    broadcasts_S5000x1_S5000x128⟩

-- The body's value is the general row-wise stage on the block itself.
theorem pay_eq (x0 : FVec Ideal S5000x128 .f32) (x1 x2 x3 : FVec Ideal S1x128 .f32) : k1_pay1 (F := Ideal) x0 x1 x2 x3
    = LnPay.pay 0x43000000#32 ev (shapeCast S5000x128 x0 shapeCasts_S5000x128_S5000x128) x1 x2 x3 := rfl

variable (V : (c : Dev nD) → (b : Ref sig .tc) → Buf (Elt Ideal) ((c : Thread nD τ).loc b))

/-- The array whose row `i` is the row-wise stage of row `i` of the input array. -/
def outArr (c : Dev nD) : FVec Ideal S50000x128 .f32 := fun i =>
  Cert.Spec.lnElu (Ideal.ofBits .f32 0x43000000#32) (Ideal.ofBits .f32 0x3727C5AC#32)
    (fun k : Fin 128 => V c main_v47 (ix2 (i 0) k)) (fun k => V c main_v48 (ix2 0 k)) (fun k => V c main_v49 (ix2 0 k))
    (fun k => V c main_v50 (ix2 0 k)) (i 1)

theorem idx_facts : ∀ t : Fin cfg1.N,
    (win1_0.index t (0 : Fin 2) = t.val ∧ win1_0.index t (1 : Fin 2) = 0)
    ∧ (∀ a, win1_1.index t a = 0) ∧ (∀ a, win1_2.index t a = 0) ∧ (∀ a, win1_3.index t a = 0)
    ∧ win1_4.index t (0 : Fin 2) = t.val ∧ win1_4.index t (1 : Fin 2) = 0 :=
  (by decide +kernel : ∀ t : Fin grid1.N, _)

-- Block `t` of the input starts at row `5000 t` and column `0` of its array.
theorem xblk_apply (c : Dev nD) (t : Fin cfg1.N) (p : Fin 5000) (k : Fin 128) (r : Fin 50000)
    (hr : r.val = t.val * 5000 + p.val) : iblk1 V c 0 t (ix2 p k) = V c main_v47 (ix2 r k) := by
  obtain ⟨⟨e0, e1⟩, -⟩ := idx_facts t
  refine congrArg (V c main_v47) (funext fun a => Fin.ext ((win1_0.rect_emb_val t _ a).trans ?_))
  match a with
  | ⟨0, _⟩ => show win1_0.index t (0 : Fin 2) * 5000 + p.val = r.val; rw [e0, hr]
  | ⟨1, _⟩ => show win1_0.index t (1 : Fin 2) * 128 + k.val = k.val; rw [e1]; omega

-- The block index of a parameter row is zero on both axes, so its block is the whole row.
theorem bblk_eq (c : Dev nD) (t : Fin cfg1.N) : iblk1 V c 1 t = V c main_v48 :=
  funext fun y => congrArg (V c main_v48) (funext fun a => Fin.ext (win1_1.rect_emb_val_of_index_zero t a ((idx_facts t).2.1 a) y))

theorem gblk_eq (c : Dev nD) (t : Fin cfg1.N) : iblk1 V c 2 t = V c main_v49 :=
  funext fun y => congrArg (V c main_v49) (funext fun a => Fin.ext (win1_2.rect_emb_val_of_index_zero t a ((idx_facts t).2.2.1 a) y))

theorem eblk_eq (c : Dev nD) (t : Fin cfg1.N) : iblk1 V c 3 t = V c main_v50 :=
  funext fun y => congrArg (V c main_v50) (funext fun a => Fin.ext (win1_3.rect_emb_val_of_index_zero t a ((idx_facts t).2.2.2.1 a) y))

theorem pay_at (c : Dev nD) (t : Fin cfg1.N) (p : Fin 5000) (q : Fin 128) (i : S50000x128.Idx)
    (h0 : (i 0).val = t.val * 5000 + p.val) (h1 : i 1 = q) :
    k1_pay1 (F := Ideal) (iblk1 V c 0 t) (iblk1 V c 1 t) (iblk1 V c 2 t) (iblk1 V c 3 t) (ix2 p q) = outArr V c i := by
  rw [pay_eq, LnPay.pay_apply, shapeCast_self, bblk_eq, gblk_eq, eblk_eq, ← h1, funext fun k => xblk_apply V c t p k (i 0) h0]
  rfl

theorem flushed_eq (c : Dev nD) (t : Fin cfg1.N) :
    (dat1 V c).flushed 4 t = ((cfg1.win 4).blk t).view.read (Elt Ideal) (outArr V c) := by
  show (cfg1.win 4).cut (grid1.coords t) ((dat1 V c).after 4 t) = _
  rw [after1_4]
  unfold out1_4
  rw [View.canon_unit_zero Cert.Rows.zero_offsets]
  simp only [View.ld_unit_zero (S := S5000x128) Cert.Rows.zero_offsets, View.ld_unit_zero (S := S1x128) Cert.Rows.zero_offsets]
  obtain ⟨-, -, -, -, e40, e41⟩ := idx_facts t
  show (k1_pay1 (F := Ideal) (iblk1 V c 0 t) (iblk1 V c 1 t) (iblk1 V c 2 t) (iblk1 V c 3 t) : S5000x128.Idx → EReal)
      = fun y : S5000x128.Idx => outArr V c (((cfg1.win 4).blk t).view.emb y)
  exact funext fun y => (congrArg _ (eq_ix2 y)).trans <| pay_at V c t (y 0) (y 1) _
    ((win1_4.rect_emb_val t y (0 : Fin 2)).trans (congrArg (· * 5000 + (y 0).val) e40))
    (Fin.ext (win1_4.rect_emb_val_of_index_zero t (1 : Fin 2) e41 y))

-- Row `r` of the output array lies in the block of point `r / 5000`.
theorem cover (i : S50000x128.Idx) : ∃ t : Fin cfg1.N, (cfg1.win 4).flush t = true ∧ i ∈ ((cfg1.win 4).blk t).view.set := by
  obtain ⟨t, ht⟩ := Cert.Rows.rows_cover N_1 win1_4.index S5000x128.size (fun a => (i a).val)
    (fun t => (idx_facts t).2.2.2.2) rfl (i 0).isLt (i 1).isLt
  refine ⟨t, flush1_4 t, ?_⟩
  show i ∈ ((View.whole main_v51).slice (win1_4.rect t)).set
  rw [View.set_slice_whole, Rect.mem_set_unit]
  exact ht

theorem arr_eq (c : Dev nD) : (dat1 V c).arrAt 4 cfg1.N = outArr V c :=
  (dat1 V c).arrAt_eq_of_cover 4 (outArr V c) (fun t _ => flushed_eq V c t) cover

theorem out_apply (c : Dev nD) (i : Fin 50000) (j : Fin 128) :
    (Gen.dat1 (F := Ideal) V c).arrAt 4 cfg1.N (ix2 i j)
      = Cert.Spec.lnElu (Ideal.ofBits .f32 0x43000000#32) (Ideal.ofBits .f32 0x3727C5AC#32)
          (fun k : Fin 128 => V c main_v47 (ix2 i k)) (fun k => V c main_v48 (ix2 0 k)) (fun k => V c main_v49 (ix2 0 k))
          (fun k => V c main_v50 (ix2 0 k)) j := by
  rw [arr_eq]
  rfl

end Cert.KernelIdeal.LN1

end
-- ==== Proof.LN5.lean ====
import proofs.«140160_j6760278524492_1_alg».proof.Proof.Gen.KernelIdeal.Frame
import proofs.«140160_j6760278524492_1_alg».proof.Proof.Gen.KernelIdeal.Skeleton
import proofs.«140160_j6760278524492_1_alg».proof.Proof.Gen.KernelIdeal.Points
import proofs.«140160_j6760278524492_1_alg».proof.Proof.Gen.KernelIdeal.Launch
import proofs.«140160_j6760278524492_1_alg».proof.Proof.KLnPay
import proofs.«140160_j6760278524492_1_alg».proof.Proof.KRows

noncomputable section

namespace Cert.KernelIdeal.LN5

open Cert.KernelIdeal Cert.KernelIdeal.Gen Idealize.ShloMosaic Idealize.ShloMosaic.TcCoe Idealize.SL.Sem
open Idealize.ShloMosaic.ValueIdx
open Idealize.ShloMosaic.Pipeline (Dat)

theorem ev : LnPay.Ev 5000 128 :=
  ⟨shapeCasts_S1x128_S1x128, broadcasts_S1x128_S5000x128, reduces_S5000x128_S5000, shapeCasts_S5000_S5000x1,
    broadcasts_S5000x1_S5000x128⟩

-- The body's value is the general row-wise stage on the block itself.
theorem pay_eq (x0 : FVec Ideal S5000x128 .f32) (x1 x2 x3 : FVec Ideal S1x128 .f32) : k5_pay1 (F := Ideal) x0 x1 x2 x3
    = LnPay.pay 0x43000000#32 ev (shapeCast S5000x128 x0 shapeCasts_S5000x128_S5000x128) x1 x2 x3 := rfl

variable (V : (c : Dev nD) → (b : Ref sig .tc) → Buf (Elt Ideal) ((c : Thread nD τ).loc b))

/-- The array whose row `i` is the row-wise stage of row `i` of the input array. -/
def outArr (c : Dev nD) : FVec Ideal S50000x128 .f32 := fun i =>
  Cert.Spec.lnElu (Ideal.ofBits .f32 0x43000000#32) (Ideal.ofBits .f32 0x3727C5AC#32)
    (fun k : Fin 128 => V c main_v91 (ix2 (i 0) k)) (fun k => V c main_v92 (ix2 0 k)) (fun k => V c main_v93 (ix2 0 k))
    (fun k => V c main_v94 (ix2 0 k)) (i 1)

theorem idx_facts : ∀ t : Fin cfg5.N,
    (win5_0.index t (0 : Fin 2) = t.val ∧ win5_0.index t (1 : Fin 2) = 0)
    ∧ (∀ a, win5_1.index t a = 0) ∧ (∀ a, win5_2.index t a = 0) ∧ (∀ a, win5_3.index t a = 0)
    ∧ win5_4.index t (0 : Fin 2) = t.val ∧ win5_4.index t (1 : Fin 2) = 0 :=
  (by decide +kernel : ∀ t : Fin grid5.N, _)

-- Block `t` of the input starts at row `5000 t` and column `0` of its array.
theorem xblk_apply (c : Dev nD) (t : Fin cfg5.N) (p : Fin 5000) (k : Fin 128) (r : Fin 50000)
    (hr : r.val = t.val * 5000 + p.val) : iblk5 V c 0 t (ix2 p k) = V c main_v91 (ix2 r k) := by
  obtain ⟨⟨e0, e1⟩, -⟩ := idx_facts t
  refine congrArg (V c main_v91) (funext fun a => Fin.ext ((win5_0.rect_emb_val t _ a).trans ?_))
  match a with
  | ⟨0, _⟩ => show win5_0.index t (0 : Fin 2) * 5000 + p.val = r.val; rw [e0, hr]
  | ⟨1, _⟩ => show win5_0.index t (1 : Fin 2) * 128 + k.val = k.val; rw [e1]; omega

-- The block index of a parameter row is zero on both axes, so its block is the whole row.
theorem bblk_eq (c : Dev nD) (t : Fin cfg5.N) : iblk5 V c 1 t = V c main_v92 :=
  funext fun y => congrArg (V c main_v92) (funext fun a => Fin.ext (win5_1.rect_emb_val_of_index_zero t a ((idx_facts t).2.1 a) y))

theorem gblk_eq (c : Dev nD) (t : Fin cfg5.N) : iblk5 V c 2 t = V c main_v93 :=
  funext fun y => congrArg (V c main_v93) (funext fun a => Fin.ext (win5_2.rect_emb_val_of_index_zero t a ((idx_facts t).2.2.1 a) y))

theorem eblk_eq (c : Dev nD) (t : Fin cfg5.N) : iblk5 V c 3 t = V c main_v94 :=
  funext fun y => congrArg (V c main_v94) (funext fun a => Fin.ext (win5_3.rect_emb_val_of_index_zero t a ((idx_facts t).2.2.2.1 a) y))

theorem pay_at (c : Dev nD) (t : Fin cfg5.N) (p : Fin 5000) (q : Fin 128) (i : S50000x128.Idx)
    (h0 : (i 0).val = t.val * 5000 + p.val) (h1 : i 1 = q) :
    k5_pay1 (F := Ideal) (iblk5 V c 0 t) (iblk5 V c 1 t) (iblk5 V c 2 t) (iblk5 V c 3 t) (ix2 p q) = outArr V c i := by
  rw [pay_eq, LnPay.pay_apply, shapeCast_self, bblk_eq, gblk_eq, eblk_eq, ← h1, funext fun k => xblk_apply V c t p k (i 0) h0]
  rfl

theorem flushed_eq (c : Dev nD) (t : Fin cfg5.N) :
    (dat5 V c).flushed 4 t = ((cfg5.win 4).blk t).view.read (Elt Ideal) (outArr V c) := by
  show (cfg5.win 4).cut (grid5.coords t) ((dat5 V c).after 4 t) = _
  rw [after5_4]
  unfold out5_4
  rw [View.canon_unit_zero Cert.Rows.zero_offsets]
  simp only [View.ld_unit_zero (S := S5000x128) Cert.Rows.zero_offsets, View.ld_unit_zero (S := S1x128) Cert.Rows.zero_offsets]
  obtain ⟨-, -, -, -, e40, e41⟩ := idx_facts t
  show (k5_pay1 (F := Ideal) (iblk5 V c 0 t) (iblk5 V c 1 t) (iblk5 V c 2 t) (iblk5 V c 3 t) : S5000x128.Idx → EReal)
      = fun y : S5000x128.Idx => outArr V c (((cfg5.win 4).blk t).view.emb y)
  exact funext fun y => (congrArg _ (eq_ix2 y)).trans <| pay_at V c t (y 0) (y 1) _
    ((win5_4.rect_emb_val t y (0 : Fin 2)).trans (congrArg (· * 5000 + (y 0).val) e40))
    (Fin.ext (win5_4.rect_emb_val_of_index_zero t (1 : Fin 2) e41 y))

-- Row `r` of the output array lies in the block of point `r / 5000`.
theorem cover (i : S50000x128.Idx) : ∃ t : Fin cfg5.N, (cfg5.win 4).flush t = true ∧ i ∈ ((cfg5.win 4).blk t).view.set := by
  obtain ⟨t, ht⟩ := Cert.Rows.rows_cover N_5 win5_4.index S5000x128.size (fun a => (i a).val)
    (fun t => (idx_facts t).2.2.2.2) rfl (i 0).isLt (i 1).isLt
  refine ⟨t, flush5_4 t, ?_⟩
  show i ∈ ((View.whole main_v95).slice (win5_4.rect t)).set
  rw [View.set_slice_whole, Rect.mem_set_unit]
  exact ht

theorem arr_eq (c : Dev nD) : (dat5 V c).arrAt 4 cfg5.N = outArr V c :=
  (dat5 V c).arrAt_eq_of_cover 4 (outArr V c) (fun t _ => flushed_eq V c t) cover

theorem out_apply (c : Dev nD) (i : Fin 50000) (j : Fin 128) :
    (Gen.dat5 (F := Ideal) V c).arrAt 4 cfg5.N (ix2 i j)
      = Cert.Spec.lnElu (Ideal.ofBits .f32 0x43000000#32) (Ideal.ofBits .f32 0x3727C5AC#32)
          (fun k : Fin 128 => V c main_v91 (ix2 i k)) (fun k => V c main_v92 (ix2 0 k)) (fun k => V c main_v93 (ix2 0 k))
          (fun k => V c main_v94 (ix2 0 k)) j := by
  rw [arr_eq]
  rfl

end Cert.KernelIdeal.LN5

end
-- ==== Proof.RefLN.lean ====
import proofs.«140160_j6760278524492_1_alg».proof.ReferenceIdeal
import proofs.«140160_j6760278524492_1_alg».proof.Proof.Gen.ReferenceIdeal
import proofs.«140160_j6760278524492_1_alg».proof.Proof.Spec
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

namespace Cert.ReferenceIdeal.Stage

open Cert.ReferenceIdeal Cert.ReferenceIdeal.Facts₀ Idealize.ShloMosaic Idealize.ShloMosaic.ValueIdx

variable {d : ℕ}

/-- The features: 50000 rows of d entries. -/
abbrev Feat (d : ℕ) : Shape := ⟨2, ![50000, d]⟩

private theorem evRow (d : ℕ) : (⟨1, ![d]⟩ : Shape).BroadcastsInDim ⟨2, ![1, d]⟩ ![1] :=
  ⟨fun a b _ => Subsingleton.elim a b, Fin.forall_fin_one.mpr (Or.inr rfl)⟩

private theorem evDown (d : ℕ) : (⟨2, ![1, d]⟩ : Shape).BroadcastsInDim (Feat d) ![0, 1] :=
  ⟨(by decide : Function.Injective (![0, 1] : Fin 2 → Fin 2)), Fin.forall_fin_two.mpr ⟨Or.inl rfl, Or.inr rfl⟩⟩

private theorem evAcross (d : ℕ) : S50000x1.BroadcastsInDim (Feat d) ![0, 1] :=
  ⟨(by decide : Function.Injective (![0, 1] : Fin 2 → Fin 2)), Fin.forall_fin_two.mpr ⟨Or.inr rfl, Or.inl rfl⟩⟩

private theorem evFill (d : ℕ) : S_.BroadcastsInDim (Feat d) ![] := ⟨fun a => a.elim0, fun a => a.elim0⟩

private theorem evSum (d : ℕ) : (Feat d).Reduces [1] S50000 :=
  ⟨rfl, Nat.one_pos, Fin.forall_fin_one.mpr rfl⟩

/-- A parameter row laid under every row of the features. -/
def rows (b : FVec Ideal ⟨1, ![d]⟩ .f32) : FVec Ideal (Feat d) .f32 :=
  broadcastInDim (Feat d) ![0, 1] (evDown d) (broadcastInDim ⟨2, ![1, d]⟩ ![1] (evRow d) b)

/-- A column of row statistics laid beside every column of the features. -/
def cols (v : FVec Ideal S50000x1 .f32) : FVec Ideal (Feat d) .f32 :=
  broadcastInDim (Feat d) ![0, 1] (evAcross d) v

/-- The number whose bits are c at every entry of the features. -/
def fill (c : BitVec 32) : FVec Ideal (Feat d) .f32 :=
  broadcastInDim (Feat d) ![] (evFill d) (constant S_ .f32 c)

/-- The features with the bias row added to every row. -/
def biased (x : FVec Ideal (Feat d) .f32) (b : FVec Ideal ⟨1, ![d]⟩ .f32) : FVec Ideal (Feat d) .f32 :=
  addf x (rows b)

/-- Each row's sum divided by the row length (the number whose bits are w), as a one-column matrix. -/
def rowMean (w : BitVec 32) (v : FVec Ideal (Feat d) .f32) : FVec Ideal S50000x1 .f32 :=
  Host.divf
    (broadcastInDim S50000x1 ![0] bcast_S50000_S50000x1_0
      (Host.reduceAdd v (constant S_ .f32 0x00000000#32) (evSum d).reducesTo h_S_))
    (broadcastInDim S50000x1 ![] bcast_S_S50000x1 (constant S_ .f32 w))

/-- Each entry's deviation from its row's mean. -/
def centred (w : BitVec 32) (v : FVec Ideal (Feat d) .f32) : FVec Ideal (Feat d) .f32 :=
  subf v (cols (rowMean w v))

/-- Each row's reciprocal standard deviation. -/
def scale (w : BitVec 32) (v : FVec Ideal (Feat d) .f32) : FVec Ideal S50000x1 .f32 :=
  Host.rsqrt (addf (rowMean w (mulf (centred w v) (centred w v)))
    (broadcastInDim S50000x1 ![] bcast_S_S50000x1 (constant S_ .f32 0x3727C5AC#32)))

/-- The normalised features, scaled by the gain row and shifted by the offset row. -/
def normed (w : BitVec 32) (x : FVec Ideal (Feat d) .f32) (b g be : FVec Ideal ⟨1, ![d]⟩ .f32) :
    FVec Ideal (Feat d) .f32 :=
  addf (mulf (mulf (centred w (biased x b)) (cols (scale w (biased x b)))) (rows g)) (rows be)

/-- ELU, entry by entry: the value where it is positive, else one times the exponential minus one of it. -/
def eluOf (h : FVec Ideal (Feat d) .f32) : FVec Ideal (Feat d) .f32 :=
  select (cmpf .ogt h (fill 0x00000000#32)) h
    (mulf (fill 0x3F800000#32)
      (Host.expm1 (select (cmpf .ogt h (fill 0x00000000#32)) (fill 0x00000000#32) h)))

/-- The row-wise stage at width d: bias, normalisation over a row whose length has bits w, ELU. -/
def lnElu (w : BitVec 32) (x : FVec Ideal (Feat d) .f32) (b g be : FVec Ideal ⟨1, ![d]⟩ .f32) :
    FVec Ideal (Feat d) .f32 :=
  eluOf (normed w x b g be)

/-- An index below n is zero when n is one. -/
private theorem val_stretch {n : ℕ} (k : Fin n) : k.val = if n = 1 then 0 else k.val := by
  have := k.isLt
  split_ifs <;> omega

theorem rows_apply (b : FVec Ideal ⟨1, ![d]⟩ .f32) (i : Fin 50000) (j : Fin d) : rows b (ix2 i j) = b (ix1 j) :=
  (broadcastInDim_apply _ (evDown d) _ (ix2 i j) (ix2 (0 : Fin 1) j)
    (Fin.forall_fin_two.mpr ⟨rfl, val_stretch j⟩)).trans
  (broadcastInDim_apply _ (evRow d) b (ix2 (0 : Fin 1) j) (ix1 j) (Fin.forall_fin_one.mpr (val_stretch j)))

theorem cols_apply (v : FVec Ideal S50000x1 .f32) (i : Fin 50000) (j : Fin d) :
    cols v (ix2 i j) = v (ix2 i (0 : Fin 1)) :=
  broadcastInDim_apply _ (evAcross d) v (ix2 i j) (ix2 i (0 : Fin 1)) (Fin.forall_fin_two.mpr ⟨rfl, rfl⟩)

/-- The program's choice between a value and one times the exponential minus one of (zero or the value) is ELU. -/
private theorem eluSpelled (h : EReal) :
    Scalar.select (Ideal.cmp .ogt h (Ideal.ofBits .f32 0x00000000#32)) h
        (Ideal.ofBits .f32 0x3F800000#32
          * (Ideal.exp (Scalar.select (Ideal.cmp .ogt h (Ideal.ofBits .f32 0x00000000#32))
              (Ideal.ofBits .f32 0x00000000#32) h) - 1))
      = Cert.Spec.elu h := by
  rw [Ideal.ofBits_zero_f32, Ideal.ofBits_one_f32, one_mul,
    show Ideal.cmp .ogt h 0 = BitVec.ofBool (decide (0 < h)) from rfl]
  unfold Cert.Spec.elu
  by_cases hp : 0 < h
  · rw [if_pos hp, decide_eq_true hp]
    exact select_one _ _
  · rw [if_neg hp, decide_eq_false hp]
    exact (select_zero _ _).trans (congrArg (Ideal.exp · - 1) (select_zero _ _))

theorem biased_apply (x : FVec Ideal (Feat d) .f32) (b : FVec Ideal ⟨1, ![d]⟩ .f32) (i : Fin 50000) (j : Fin d) :
    biased x b (ix2 i j) = x (ix2 i j) + b (ix1 j) :=
  congrArg (x (ix2 i j) + ·) (rows_apply b i j)

theorem rowMean_apply (w : BitVec 32) (v : FVec Ideal (Feat d) .f32) (i : Fin 50000) :
    rowMean w v (ix2 i (0 : Fin 1)) = Ideal.div (∑ k : Fin d, v (ix2 i k)) (Ideal.ofBits .f32 w) := by
  unfold rowMean
  rw [hostDivf_apply, broadcastInDim_apply _ _ _ (ix2 i (0 : Fin 1)) (ix1 i) (Fin.forall_fin_one.mpr rfl),
    hostReduceAdd_apply, Ideal.hostReduceAdd_single _ (evSum d), broadcastInDim_scalar_apply, constant_apply,
    constant_apply, Ideal.ofBits_zero_f32, zero_add]
  exact congrArg (Ideal.div · _) (Finset.sum_congr rfl fun k _ =>
    congrArg v (funext (Fin.forall_fin_two.mpr ⟨Fin.ext rfl, Fin.ext rfl⟩)))

theorem centred_apply (w : BitVec 32) (v : FVec Ideal (Feat d) .f32) (i : Fin 50000) (j : Fin d) :
    centred w v (ix2 i j) = v (ix2 i j) - Ideal.div (∑ k : Fin d, v (ix2 i k)) (Ideal.ofBits .f32 w) :=
  congrArg (v (ix2 i j) - ·) ((cols_apply _ i j).trans (rowMean_apply w v i))

theorem scale_apply (w : BitVec 32) (v : FVec Ideal (Feat d) .f32) (i : Fin 50000) :
    scale w v (ix2 i (0 : Fin 1))
      = Ideal.rsqrt (Ideal.div (∑ k : Fin d, centred w v (ix2 i k) * centred w v (ix2 i k)) (Ideal.ofBits .f32 w)
          + Ideal.ofBits .f32 0x3727C5AC#32) :=
  congrArg (fun m => Ideal.rsqrt (m + Ideal.ofBits .f32 0x3727C5AC#32))
    (rowMean_apply w (mulf (centred w v) (centred w v)) i)

theorem normed_apply (w : BitVec 32) (x : FVec Ideal (Feat d) .f32) (b g be : FVec Ideal ⟨1, ![d]⟩ .f32)
    (i : Fin 50000) (j : Fin d) :
    normed w x b g be (ix2 i j)
      = Cert.Spec.lnEntry (Ideal.ofBits .f32 w) (Ideal.ofBits .f32 0x3727C5AC#32) (fun k => x (ix2 i k))
          (fun k => b (ix1 k)) (fun k => g (ix1 k)) (fun k => be (ix1 k)) j := by
  unfold normed Cert.Spec.lnEntry
  rw [addf_apply, mulf_apply, mulf_apply, cols_apply, scale_apply, rows_apply, rows_apply]
  simp only [centred_apply, biased_apply]

theorem eluOf_apply (h : FVec Ideal (Feat d) .f32) (p : (Feat d).Idx) : eluOf h p = Cert.Spec.elu (h p) :=
  eluSpelled (h p)

theorem lnElu_apply (w : BitVec 32) (x : FVec Ideal (Feat d) .f32) (b g be : FVec Ideal ⟨1, ![d]⟩ .f32)
    (i : Fin 50000) (j : Fin d) :
    lnElu w x b g be (ix2 i j)
      = Cert.Spec.lnElu (Ideal.ofBits .f32 w) (Ideal.ofBits .f32 0x3727C5AC#32) (fun k => x (ix2 i k))
          (fun k => b (ix1 k)) (fun k => g (ix1 k)) (fun k => be (ix1 k)) j :=
  (eluOf_apply _ _).trans (congrArg Cert.Spec.elu (normed_apply w x b g be i j))

def lnElu128 (x : FVec Ideal S50000x128 .f32) (b g be : FVec Ideal S128 .f32) : FVec Ideal S50000x128 .f32 :=
  lnElu 0x43000000#32 x b g be

def lnElu256 (x : FVec Ideal S50000x256 .f32) (b g be : FVec Ideal S256 .f32) : FVec Ideal S50000x256 .f32 :=
  lnElu 0x43800000#32 x b g be

def lnElu64 (x : FVec Ideal S50000x64 .f32) (b g be : FVec Ideal S64 .f32) : FVec Ideal S50000x64 .f32 :=
  lnElu 0x42800000#32 x b g be

theorem lnElu128_apply (x : FVec Ideal S50000x128 .f32) (b g be : FVec Ideal S128 .f32) (i : Fin 50000) (j : Fin 128) :
    lnElu128 x b g be (ix2 i j)
      = Cert.Spec.lnElu (Ideal.ofBits .f32 0x43000000#32) (Ideal.ofBits .f32 0x3727C5AC#32)
          (fun k : Fin 128 => x (ix2 i k)) (fun k : Fin 128 => b (ix1 k)) (fun k : Fin 128 => g (ix1 k))
          (fun k : Fin 128 => be (ix1 k)) j :=
  lnElu_apply _ x b g be i j

theorem lnElu256_apply (x : FVec Ideal S50000x256 .f32) (b g be : FVec Ideal S256 .f32) (i : Fin 50000) (j : Fin 256) :
    lnElu256 x b g be (ix2 i j)
      = Cert.Spec.lnElu (Ideal.ofBits .f32 0x43800000#32) (Ideal.ofBits .f32 0x3727C5AC#32)
          (fun k : Fin 256 => x (ix2 i k)) (fun k : Fin 256 => b (ix1 k)) (fun k : Fin 256 => g (ix1 k))
          (fun k : Fin 256 => be (ix1 k)) j :=
  lnElu_apply _ x b g be i j

theorem lnElu64_apply (x : FVec Ideal S50000x64 .f32) (b g be : FVec Ideal S64 .f32) (i : Fin 50000) (j : Fin 64) :
    lnElu64 x b g be (ix2 i j)
      = Cert.Spec.lnElu (Ideal.ofBits .f32 0x42800000#32) (Ideal.ofBits .f32 0x3727C5AC#32)
          (fun k : Fin 64 => x (ix2 i k)) (fun k : Fin 64 => b (ix1 k)) (fun k : Fin 64 => g (ix1 k))
          (fun k : Fin 64 => be (ix1 k)) j :=
  lnElu_apply _ x b g be i j

end Cert.ReferenceIdeal.Stage

end
-- ==== Proof.KArrLN.lean ====
import proofs.«140160_j6760278524492_1_alg».proof.Proof.Gen.KernelIdeal.Frame
import proofs.«140160_j6760278524492_1_alg».proof.Proof.Spec
import proofs.«140160_j6760278524492_1_alg».proof.Proof.LN1
import proofs.«140160_j6760278524492_1_alg».proof.Proof.LN5
import proofs.«140160_j6760278524492_1_alg».proof.Proof.RefLN
import Idealize.ShloMosaic.Lib.ValueIdx

noncomputable section

namespace Cert.KernelIdeal.Arr

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

/-- Entry by entry both sides are the specification's entry of the same row. -/
theorem ln1_array (c : Dev nD) (b g be : FVec Ideal S128 .f32)
    (hb : ∀ k : Fin 128, (V c main_v48 (ix2 (0 : Fin 1) k) : EReal) = b (ix1 k))
    (hg : ∀ k : Fin 128, (V c main_v49 (ix2 (0 : Fin 1) k) : EReal) = g (ix1 k))
    (hbe : ∀ k : Fin 128, (V c main_v50 (ix2 (0 : Fin 1) k) : EReal) = be (ix1 k)) :
    ((dat1 (F := Ideal) V c).arrAt 4 cfg1.N : FVec Ideal S50000x128 .f32)
      = Cert.ReferenceIdeal.Stage.lnElu128 (V c main_v47 : FVec Ideal S50000x128 .f32) b g be := by
  funext y
  obtain ⟨i, j, rfl⟩ : ∃ (i : Fin 50000) (j : Fin 128), y = ix2 i j := ⟨y 0, y 1, eq_ix2 y⟩
  rw [LN1.out_apply V c i j, Cert.ReferenceIdeal.Stage.lnElu128_apply, funext hb, funext hg, funext hbe]

theorem ln5_array (c : Dev nD) (b g be : FVec Ideal S128 .f32)
    (hb : ∀ k : Fin 128, (V c main_v92 (ix2 (0 : Fin 1) k) : EReal) = b (ix1 k))
    (hg : ∀ k : Fin 128, (V c main_v93 (ix2 (0 : Fin 1) k) : EReal) = g (ix1 k))
    (hbe : ∀ k : Fin 128, (V c main_v94 (ix2 (0 : Fin 1) k) : EReal) = be (ix1 k)) :
    ((dat5 (F := Ideal) V c).arrAt 4 cfg5.N : FVec Ideal S50000x128 .f32)
      = Cert.ReferenceIdeal.Stage.lnElu128 (V c main_v91 : FVec Ideal S50000x128 .f32) b g be := by
  funext y
  obtain ⟨i, j, rfl⟩ : ∃ (i : Fin 50000) (j : Fin 128), y = ix2 i j := ⟨y 0, y 1, eq_ix2 y⟩
  rw [LN5.out_apply V c i j, Cert.ReferenceIdeal.Stage.lnElu128_apply, funext hb, funext hg, funext hbe]

end Cert.KernelIdeal.Arr

end
-- ==== Proof.LN3.lean ====
import proofs.«140160_j6760278524492_1_alg».proof.Proof.Gen.KernelIdeal.Frame
import proofs.«140160_j6760278524492_1_alg».proof.Proof.Gen.KernelIdeal.Skeleton
import proofs.«140160_j6760278524492_1_alg».proof.Proof.Gen.KernelIdeal.Points
import proofs.«140160_j6760278524492_1_alg».proof.Proof.Gen.KernelIdeal.Launch
import proofs.«140160_j6760278524492_1_alg».proof.Proof.KLnPay
import proofs.«140160_j6760278524492_1_alg».proof.Proof.KRows

noncomputable section

namespace Cert.KernelIdeal.LN3

open Cert.KernelIdeal Cert.KernelIdeal.Gen Idealize.ShloMosaic Idealize.ShloMosaic.TcCoe Idealize.SL.Sem
open Idealize.ShloMosaic.ValueIdx
open Idealize.ShloMosaic.Pipeline (Dat)

theorem ev : LnPay.Ev 5000 256 :=
  ⟨shapeCasts_S1x256_S1x256, broadcasts_S1x256_S5000x256, reduces_S5000x256_S5000, shapeCasts_S5000_S5000x1,
    broadcasts_S5000x1_S5000x256⟩

-- The body's value is the general row-wise stage on the block itself.
theorem pay_eq (x0 : FVec Ideal S5000x256 .f32) (x1 x2 x3 : FVec Ideal S1x256 .f32) : k3_pay1 (F := Ideal) x0 x1 x2 x3
    = LnPay.pay 0x43800000#32 ev (shapeCast S5000x256 x0 shapeCasts_S5000x256_S5000x256) x1 x2 x3 := rfl

variable (V : (c : Dev nD) → (b : Ref sig .tc) → Buf (Elt Ideal) ((c : Thread nD τ).loc b))

/-- The array whose row `i` is the row-wise stage of row `i` of the input array. -/
def outArr (c : Dev nD) : FVec Ideal S50000x256 .f32 := fun i =>
  Cert.Spec.lnElu (Ideal.ofBits .f32 0x43800000#32) (Ideal.ofBits .f32 0x3727C5AC#32)
    (fun k : Fin 256 => V c main_v69 (ix2 (i 0) k)) (fun k => V c main_v70 (ix2 0 k)) (fun k => V c main_v71 (ix2 0 k))
    (fun k => V c main_v72 (ix2 0 k)) (i 1)

theorem idx_facts : ∀ t : Fin cfg3.N,
    (win3_0.index t (0 : Fin 2) = t.val ∧ win3_0.index t (1 : Fin 2) = 0)
    ∧ (∀ a, win3_1.index t a = 0) ∧ (∀ a, win3_2.index t a = 0) ∧ (∀ a, win3_3.index t a = 0)
    ∧ win3_4.index t (0 : Fin 2) = t.val ∧ win3_4.index t (1 : Fin 2) = 0 :=
  (by decide +kernel : ∀ t : Fin grid3.N, _)

-- Block `t` of the input starts at row `5000 t` and column `0` of its array.
theorem xblk_apply (c : Dev nD) (t : Fin cfg3.N) (p : Fin 5000) (k : Fin 256) (r : Fin 50000)
    (hr : r.val = t.val * 5000 + p.val) : iblk3 V c 0 t (ix2 p k) = V c main_v69 (ix2 r k) := by
  obtain ⟨⟨e0, e1⟩, -⟩ := idx_facts t
  refine congrArg (V c main_v69) (funext fun a => Fin.ext ((win3_0.rect_emb_val t _ a).trans ?_))
  match a with
  | ⟨0, _⟩ => show win3_0.index t (0 : Fin 2) * 5000 + p.val = r.val; rw [e0, hr]
  | ⟨1, _⟩ => show win3_0.index t (1 : Fin 2) * 256 + k.val = k.val; rw [e1]; omega

-- The block index of a parameter row is zero on both axes, so its block is the whole row.
theorem bblk_eq (c : Dev nD) (t : Fin cfg3.N) : iblk3 V c 1 t = V c main_v70 :=
  funext fun y => congrArg (V c main_v70) (funext fun a => Fin.ext (win3_1.rect_emb_val_of_index_zero t a ((idx_facts t).2.1 a) y))

theorem gblk_eq (c : Dev nD) (t : Fin cfg3.N) : iblk3 V c 2 t = V c main_v71 :=
  funext fun y => congrArg (V c main_v71) (funext fun a => Fin.ext (win3_2.rect_emb_val_of_index_zero t a ((idx_facts t).2.2.1 a) y))

theorem eblk_eq (c : Dev nD) (t : Fin cfg3.N) : iblk3 V c 3 t = V c main_v72 :=
  funext fun y => congrArg (V c main_v72) (funext fun a => Fin.ext (win3_3.rect_emb_val_of_index_zero t a ((idx_facts t).2.2.2.1 a) y))

theorem pay_at (c : Dev nD) (t : Fin cfg3.N) (p : Fin 5000) (q : Fin 256) (i : S50000x256.Idx)
    (h0 : (i 0).val = t.val * 5000 + p.val) (h1 : i 1 = q) :
    k3_pay1 (F := Ideal) (iblk3 V c 0 t) (iblk3 V c 1 t) (iblk3 V c 2 t) (iblk3 V c 3 t) (ix2 p q) = outArr V c i := by
  rw [pay_eq, LnPay.pay_apply, shapeCast_self, bblk_eq, gblk_eq, eblk_eq, ← h1, funext fun k => xblk_apply V c t p k (i 0) h0]
  rfl

theorem flushed_eq (c : Dev nD) (t : Fin cfg3.N) :
    (dat3 V c).flushed 4 t = ((cfg3.win 4).blk t).view.read (Elt Ideal) (outArr V c) := by
  show (cfg3.win 4).cut (grid3.coords t) ((dat3 V c).after 4 t) = _
  rw [after3_4]
  unfold out3_4
  rw [View.canon_unit_zero Cert.Rows.zero_offsets]
  simp only [View.ld_unit_zero (S := S5000x256) Cert.Rows.zero_offsets, View.ld_unit_zero (S := S1x256) Cert.Rows.zero_offsets]
  obtain ⟨-, -, -, -, e40, e41⟩ := idx_facts t
  show (k3_pay1 (F := Ideal) (iblk3 V c 0 t) (iblk3 V c 1 t) (iblk3 V c 2 t) (iblk3 V c 3 t) : S5000x256.Idx → EReal)
      = fun y : S5000x256.Idx => outArr V c (((cfg3.win 4).blk t).view.emb y)
  exact funext fun y => (congrArg _ (eq_ix2 y)).trans <| pay_at V c t (y 0) (y 1) _
    ((win3_4.rect_emb_val t y (0 : Fin 2)).trans (congrArg (· * 5000 + (y 0).val) e40))
    (Fin.ext (win3_4.rect_emb_val_of_index_zero t (1 : Fin 2) e41 y))

-- Row `r` of the output array lies in the block of point `r / 5000`.
theorem cover (i : S50000x256.Idx) : ∃ t : Fin cfg3.N, (cfg3.win 4).flush t = true ∧ i ∈ ((cfg3.win 4).blk t).view.set := by
  obtain ⟨t, ht⟩ := Cert.Rows.rows_cover N_3 win3_4.index S5000x256.size (fun a => (i a).val)
    (fun t => (idx_facts t).2.2.2.2) rfl (i 0).isLt (i 1).isLt
  refine ⟨t, flush3_4 t, ?_⟩
  show i ∈ ((View.whole main_v73).slice (win3_4.rect t)).set
  rw [View.set_slice_whole, Rect.mem_set_unit]
  exact ht

theorem arr_eq (c : Dev nD) : (dat3 V c).arrAt 4 cfg3.N = outArr V c :=
  (dat3 V c).arrAt_eq_of_cover 4 (outArr V c) (fun t _ => flushed_eq V c t) cover

theorem out_apply (c : Dev nD) (i : Fin 50000) (j : Fin 256) :
    (Gen.dat3 (F := Ideal) V c).arrAt 4 cfg3.N (ix2 i j)
      = Cert.Spec.lnElu (Ideal.ofBits .f32 0x43800000#32) (Ideal.ofBits .f32 0x3727C5AC#32)
          (fun k : Fin 256 => V c main_v69 (ix2 i k)) (fun k => V c main_v70 (ix2 0 k)) (fun k => V c main_v71 (ix2 0 k))
          (fun k => V c main_v72 (ix2 0 k)) j := by
  rw [arr_eq]
  rfl

end Cert.KernelIdeal.LN3

end
-- ==== Proof.KArrLN3.lean ====
import proofs.«140160_j6760278524492_1_alg».proof.Proof.Gen.KernelIdeal.Frame
import proofs.«140160_j6760278524492_1_alg».proof.Proof.Spec
import proofs.«140160_j6760278524492_1_alg».proof.Proof.LN3
import proofs.«140160_j6760278524492_1_alg».proof.Proof.RefLN
import Idealize.ShloMosaic.Lib.ValueIdx

noncomputable section

namespace Cert.KernelIdeal.Arr

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

/-- Entry by entry both sides are the specification's entry of the same row. -/
theorem ln3_array (c : Dev nD) (b g be : FVec Ideal S256 .f32)
    (hb : ∀ k : Fin 256, (V c main_v70 (ix2 (0 : Fin 1) k) : EReal) = b (ix1 k))
    (hg : ∀ k : Fin 256, (V c main_v71 (ix2 (0 : Fin 1) k) : EReal) = g (ix1 k))
    (hbe : ∀ k : Fin 256, (V c main_v72 (ix2 (0 : Fin 1) k) : EReal) = be (ix1 k)) :
    ((dat3 (F := Ideal) V c).arrAt 4 cfg3.N : FVec Ideal S50000x256 .f32)
      = Cert.ReferenceIdeal.Stage.lnElu256 (V c main_v69 : FVec Ideal S50000x256 .f32) b g be := by
  funext y
  obtain ⟨i, j, rfl⟩ : ∃ (i : Fin 50000) (j : Fin 256), y = ix2 i j := ⟨y 0, y 1, eq_ix2 y⟩
  rw [LN3.out_apply V c i j, Cert.ReferenceIdeal.Stage.lnElu256_apply, funext hb, funext hg, funext hbe]

end Cert.KernelIdeal.Arr

end
-- ==== Proof.Head6.lean ====
import proofs.«140160_j6760278524492_1_alg».proof.Proof.Gen.KernelIdeal.Frame
import proofs.«140160_j6760278524492_1_alg».proof.Proof.Gen.KernelIdeal.Skeleton
import proofs.«140160_j6760278524492_1_alg».proof.Proof.Gen.KernelIdeal.Points
import proofs.«140160_j6760278524492_1_alg».proof.Proof.Gen.KernelIdeal.Launch
import proofs.«140160_j6760278524492_1_alg».proof.Proof.KLnPay
import proofs.«140160_j6760278524492_1_alg».proof.Proof.KDot
import proofs.«140160_j6760278524492_1_alg».proof.Proof.KRows

noncomputable section

namespace Cert.KernelIdeal.Head6

open Cert.KernelIdeal Cert.KernelIdeal.Gen
open Idealize.ShloMosaic Idealize.ShloMosaic.TcCoe Idealize.ShloMosaic.ValueIdx Idealize.SL.Sem
open Idealize.ShloMosaic.Pipeline (Dat)

theorem ev : LnPay.Ev 5000 64 :=
  ⟨shapeCasts_S1x64_S1x64, broadcasts_S1x64_S5000x64, reduces_S5000x64_S5000, shapeCasts_S5000_S5000x1,
    broadcasts_S5000x1_S5000x64⟩

/-- The product of a block of rows with the weight matrix, into a zero accumulator. -/
def prod (x0 : Vec Ideal S5000x128 .f32) (x1 : Vec Ideal S128x64 .f32) : FVec Ideal S5000x64 .f32 :=
  matmul dot_S5000x128_S128x64_S5000x64_1_0_0_1_n_n none
    (truncf .bf16 (shapeCast S5000x128 x0 shapeCasts_S5000x128_S5000x128) bitsLt_bf16_f32) (truncf .bf16 x1 bitsLt_bf16_f32)
    (constant (F := Ideal) S5000x64 .f32 0x00000000#32)

-- On the extended reals a narrowing of the format leaves a value as it is.
theorem prod_apply (x0 : Vec Ideal S5000x128 .f32) (x1 : Vec Ideal S128x64 .f32) (p : Fin 5000) (k : Fin 64) :
    prod x0 x1 (ix2 p k) = Cert.Spec.dotRow (fun l : Fin 128 => x0 (ix2 p l)) (fun l => x1 (ix2 l k)) := by
  unfold prod
  rw [Dot.matmul_zero_apply dot_S5000x128_S128x64_S5000x64_1_0_0_1_n_n rfl, shapeCast_self]
  rfl

-- The body's value is the general row-wise stage on the product.
theorem pay_eq (x0 : Vec Ideal S5000x128 .f32) (x1 : Vec Ideal S128x64 .f32) (x2 x3 x4 : Vec Ideal S1x64 .f32) :
    k6_pay1 (F := Ideal) (k6_pay2 x0 x1 x2 x3 x4) (k6_pay3 x0 x1 x2 x3 x4) (k6_pay4 x0 x1 x2 x3 x4)
      = LnPay.pay 0x42800000#32 ev (prod x0 x1) x2 x3 x4 := rfl

variable (V : (c : Dev nD) → (b : Ref sig .tc) → Buf (Elt Ideal) ((c : Thread nD τ).loc b))

/-- The array whose row `i` is the row-wise stage of row `i` of the input array times the weights. -/
def outArr (c : Dev nD) : Vec Ideal S50000x64 .f32 := fun i =>
  Cert.Spec.lnElu (Ideal.ofBits .f32 0x42800000#32) (Ideal.ofBits .f32 0x3727C5AC#32)
    (fun k : Fin 64 => Cert.Spec.dotRow (fun l : Fin 128 => V c main_v95 (ix2 (i 0) l)) (fun l => V c main_arg14 (ix2 l k)))
    (fun k => V c main_v96 (ix2 0 k)) (fun k => V c main_v97 (ix2 0 k)) (fun k => V c main_v98 (ix2 0 k)) (i 1)

theorem idx_facts : ∀ t : Fin cfg6.N,
    (win6_0.index t (0 : Fin 2) = t.val ∧ win6_0.index t (1 : Fin 2) = 0)
    ∧ (∀ a, win6_1.index t a = 0) ∧ (∀ a, win6_2.index t a = 0) ∧ (∀ a, win6_3.index t a = 0) ∧ (∀ a, win6_4.index t a = 0)
    ∧ win6_5.index t (0 : Fin 2) = t.val ∧ win6_5.index t (1 : Fin 2) = 0 :=
  (by decide +kernel : ∀ t : Fin grid6.N, _)

-- Block `t` of the input starts at row `5000 t` and column `0` of its array.
theorem xblk_apply (c : Dev nD) (t : Fin cfg6.N) (p : Fin 5000) (l : Fin 128) (r : Fin 50000)
    (hr : r.val = t.val * 5000 + p.val) : iblk6 V c 0 t (ix2 p l) = V c main_v95 (ix2 r l) := by
  obtain ⟨⟨e0, e1⟩, -⟩ := idx_facts t
  refine congrArg (V c main_v95) (funext fun a => Fin.ext ((win6_0.rect_emb_val t _ a).trans ?_))
  match a with
  | ⟨0, _⟩ => show win6_0.index t (0 : Fin 2) * 5000 + p.val = r.val; rw [e0, hr]
  | ⟨1, _⟩ => show win6_0.index t (1 : Fin 2) * 128 + l.val = l.val; rw [e1]; omega

-- The block index of the weights and of a parameter row is zero on both axes, so the block is the whole array.
theorem wblk_eq (c : Dev nD) (t : Fin cfg6.N) : iblk6 V c 1 t = V c main_arg14 :=
  funext fun y => congrArg (V c main_arg14) (funext fun a => Fin.ext (win6_1.rect_emb_val_of_index_zero t a ((idx_facts t).2.1 a) y))

theorem bblk_eq (c : Dev nD) (t : Fin cfg6.N) : iblk6 V c 2 t = V c main_v96 :=
  funext fun y => congrArg (V c main_v96) (funext fun a => Fin.ext (win6_2.rect_emb_val_of_index_zero t a ((idx_facts t).2.2.1 a) y))

theorem gblk_eq (c : Dev nD) (t : Fin cfg6.N) : iblk6 V c 3 t = V c main_v97 :=
  funext fun y => congrArg (V c main_v97) (funext fun a => Fin.ext (win6_3.rect_emb_val_of_index_zero t a ((idx_facts t).2.2.2.1 a) y))

theorem eblk_eq (c : Dev nD) (t : Fin cfg6.N) : iblk6 V c 4 t = V c main_v98 :=
  funext fun y => congrArg (V c main_v98) (funext fun a => Fin.ext (win6_4.rect_emb_val_of_index_zero t a ((idx_facts t).2.2.2.2.1 a) y))

theorem pay_at (c : Dev nD) (t : Fin cfg6.N) (p : Fin 5000) (q : Fin 64) (i : S50000x64.Idx)
    (h0 : (i 0).val = t.val * 5000 + p.val) (h1 : i 1 = q) :
    LnPay.pay 0x42800000#32 ev (prod (iblk6 V c 0 t) (iblk6 V c 1 t)) (iblk6 V c 2 t) (iblk6 V c 3 t) (iblk6 V c 4 t) (ix2 p q)
      = outArr V c i := by
  rw [LnPay.pay_apply, wblk_eq, bblk_eq, gblk_eq, eblk_eq, ← h1, funext fun k => prod_apply (iblk6 V c 0 t) (V c main_arg14) p k,
    funext fun l => xblk_apply V c t p l (i 0) h0]
  rfl

theorem flushed_eq (c : Dev nD) (t : Fin cfg6.N) :
    (dat6 (F := Ideal) V c).flushed 5 t = ((cfg6.win 5).blk t).view.read (Elt Ideal) (outArr V c) := by
  show (cfg6.win 5).cut (grid6.coords t) ((dat6 (F := Ideal) V c).after 5 t) = _
  rw [after6_5]
  unfold out6_5
  rw [View.canon_unit_zero Cert.Rows.zero_offsets]
  simp only [View.ld_unit_zero (S := S5000x128) Cert.Rows.zero_offsets, View.ld_unit_zero (S := S128x64) Cert.Rows.zero_offsets,
    View.ld_unit_zero (S := S1x64) Cert.Rows.zero_offsets]
  obtain ⟨-, -, -, -, -, e50, e51⟩ := idx_facts t
  rw [pay_eq]
  show (LnPay.pay 0x42800000#32 ev _ _ _ _ : S5000x64.Idx → EReal) = fun y : S5000x64.Idx => outArr V c (((cfg6.win 5).blk t).view.emb y)
  exact funext fun y => (congrArg _ (eq_ix2 y)).trans <| pay_at V c t (y 0) (y 1) _
    ((win6_5.rect_emb_val t y (0 : Fin 2)).trans (congrArg (· * 5000 + (y 0).val) e50))
    (Fin.ext (win6_5.rect_emb_val_of_index_zero t (1 : Fin 2) e51 y))

-- Row `r` of the output array lies in the block of point `r / 5000`.
theorem cover (i : S50000x64.Idx) : ∃ t : Fin cfg6.N, (cfg6.win 5).flush t = true ∧ i ∈ ((cfg6.win 5).blk t).view.set := by
  obtain ⟨t, ht⟩ := Cert.Rows.rows_cover N_6 win6_5.index S5000x64.size (fun a => (i a).val)
    (fun t => (idx_facts t).2.2.2.2.2) rfl (i 0).isLt (i 1).isLt
  refine ⟨t, flush6_5 t, ?_⟩
  show i ∈ ((View.whole main_v99).slice (win6_5.rect t)).set
  rw [View.set_slice_whole, Rect.mem_set_unit]
  exact ht

theorem arr_eq (c : Dev nD) : (dat6 (F := Ideal) V c).arrAt 5 cfg6.N = outArr V c :=
  (dat6 (F := Ideal) V c).arrAt_eq_of_cover 5 (outArr V c) (fun t _ => flushed_eq V c t) cover

theorem out_apply (c : Dev nD) (i : Fin 50000) (j : Fin 64) :
    (dat6 (F := Ideal) V c).arrAt 5 cfg6.N (ix2 i j)
      = Cert.Spec.lnElu (Ideal.ofBits .f32 0x42800000#32) (Ideal.ofBits .f32 0x3727C5AC#32)
          (fun k : Fin 64 => Cert.Spec.dotRow (fun l : Fin 128 => V c main_v95 (ix2 i l)) (fun l => V c main_arg14 (ix2 l k)))
          (fun k => V c main_v96 (ix2 0 k)) (fun k => V c main_v97 (ix2 0 k)) (fun k => V c main_v98 (ix2 0 k)) j := by
  rw [arr_eq]
  rfl

end Cert.KernelIdeal.Head6

end
-- ==== Proof.KArrHead.lean ====
import proofs.«140160_j6760278524492_1_alg».proof.Proof.Gen.KernelIdeal.Frame
import proofs.«140160_j6760278524492_1_alg».proof.Proof.Spec
import proofs.«140160_j6760278524492_1_alg».proof.Proof.Head6
import proofs.«140160_j6760278524492_1_alg».proof.Proof.RefDot
import proofs.«140160_j6760278524492_1_alg».proof.Proof.RefLN
import Idealize.ShloMosaic.Lib.ValueIdx

noncomputable section

namespace Cert.KernelIdeal.Arr

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

/-- Entry by entry both sides are the specification's entry of the same row of products. -/
theorem head6_array (c : Dev nD) (b g be : FVec Ideal S64 .f32)
    (hb : ∀ k : Fin 64, (V c main_v96 (ix2 (0 : Fin 1) k) : EReal) = b (ix1 k))
    (hg : ∀ k : Fin 64, (V c main_v97 (ix2 (0 : Fin 1) k) : EReal) = g (ix1 k))
    (hbe : ∀ k : Fin 64, (V c main_v98 (ix2 (0 : Fin 1) k) : EReal) = be (ix1 k)) :
    ((dat6 (F := Ideal) V c).arrAt 5 cfg6.N : FVec Ideal S50000x64 .f32)
      = Cert.ReferenceIdeal.Stage.lnElu64
          (Host.dotGeneral (F := Ideal) (φ₁ := .f32) (φ₂ := .f32) Cert.ReferenceIdeal.dot_S50000x128_S128x64_S50000x64_1_0_0_1_n_n none
            (V c main_v95 : FVec Ideal S50000x128 .f32) (V c main_arg14 : FVec Ideal S128x64 .f32)) b g be := by
  funext y
  obtain ⟨i, j, rfl⟩ : ∃ (i : Fin 50000) (j : Fin 64), y = ix2 i j := ⟨y 0, y 1, eq_ix2 y⟩
  rw [Head6.out_apply V c i j, Cert.ReferenceIdeal.Stage.lnElu64_apply, funext hb, funext hg, funext hbe]
  simp only [Cert.ReferenceIdeal.Stage.dot_S50000x128_S128x64_S50000x64_1_0_0_1_n_n_apply]

end Cert.KernelIdeal.Arr

end
-- ==== Proof.Final.lean ====
import proofs.«140160_j6760278524492_1_alg».proof.Proof.HostSpec
import proofs.«140160_j6760278524492_1_alg».proof.Proof.RefLN

noncomputable section

namespace Cert.Final

open Idealize.ShloMosaic
open Cert.ReferenceIdeal Cert.ReferenceIdeal.Gen
open Cert.KernelIdeal.HostSpec (srcIdx dstIdx coef dinvSq agg128 agg256)
open Cert.ReferenceIdeal.Stage (lnElu128 lnElu256 lnElu64)

def out (x : FVec Ideal S50000x128 .f32) (e : IVec S2x800000 32)
    (W1 : FVec Ideal S128x128 .f32) (b1 g1 be1 : FVec Ideal S128 .f32)
    (W2 : FVec Ideal S128x256 .f32) (b2 g2 be2 : FVec Ideal S256 .f32)
    (W3 : FVec Ideal S256x128 .f32) (b3 g3 be3 : FVec Ideal S128 .f32)
    (Wl1 : FVec Ideal S128x64 .f32) (bl1 g4 be4 : FVec Ideal S64 .f32)
    (Wl2 : FVec Ideal S64x500 .f32) (bl2 : FVec Ideal S500 .f32) : FVec Ideal S50000x500 .f32 :=
  let s : IVec S800000 32 := srcIdx e
  let d : IVec S800000 32 := dstIdx e
  let cf : FVec Ideal S800000 .f32 := coef e
  let dq : FVec Ideal S50000 .f32 := dinvSq e
  let y1 : FVec Ideal S50000x128 .f32 :=
    lnElu128 (agg128 (Host.dotGeneral (F := Ideal) (φ₁ := .f32) (φ₂ := .f32) dot_S50000x128_S128x128_S50000x128_1_0_0_1_n_n none x W1) s d cf dq) b1 g1 be1
  let y2 : FVec Ideal S50000x256 .f32 :=
    lnElu256 (agg256 (Host.dotGeneral (F := Ideal) (φ₁ := .f32) (φ₂ := .f32) dot_S50000x128_S128x256_S50000x256_1_0_0_1_n_n none y1 W2) s d cf dq) b2 g2 be2
  let y3 : FVec Ideal S50000x128 .f32 :=
    lnElu128 (agg128 (Host.dotGeneral (F := Ideal) (φ₁ := .f32) (φ₂ := .f32) dot_S50000x256_S256x128_S50000x128_1_0_0_1_n_n none y2 W3) s d cf dq) b3 g3 be3
  let y4 : FVec Ideal S50000x64 .f32 :=
    lnElu64 (Host.dotGeneral (F := Ideal) (φ₁ := .f32) (φ₂ := .f32) dot_S50000x128_S128x64_S50000x64_1_0_0_1_n_n none y3 Wl1) bl1 g4 be4
  addf (Host.dotGeneral (F := Ideal) (φ₁ := .f32) (φ₂ := .f32) dot_S50000x64_S64x500_S50000x500_1_0_0_1_n_n none y4 Wl2)
    (broadcastInDim S50000x500 ![0, 1] bcast_S1x500_S50000x500_0_1 (broadcastInDim S1x500 ![1] bcast_S500_S1x500_1 bl2))

end Cert.Final

end
-- ==== Proof.KVal.lean ====
import proofs.«140160_j6760278524492_1_alg».proof.Proof.Gen.KernelIdeal.Frame
import proofs.«140160_j6760278524492_1_alg».proof.Proof.Spec
import proofs.«140160_j6760278524492_1_alg».proof.Proof.KFold
import proofs.«140160_j6760278524492_1_alg».proof.Proof.MM0
import proofs.«140160_j6760278524492_1_alg».proof.Proof.RefDot
import proofs.«140160_j6760278524492_1_alg».proof.Proof.HostSpec
import proofs.«140160_j6760278524492_1_alg».proof.Proof.HostSmall
import proofs.«140160_j6760278524492_1_alg».proof.Proof.Fin7
import proofs.«140160_j6760278524492_1_alg».proof.Proof.KArrMM
import proofs.«140160_j6760278524492_1_alg».proof.Proof.KArrLN
import proofs.«140160_j6760278524492_1_alg».proof.Proof.KArrLN3
import proofs.«140160_j6760278524492_1_alg».proof.Proof.KArrHead
import proofs.«140160_j6760278524492_1_alg».proof.Proof.Final
import proofs.«140160_j6760278524492_1_alg».proof.Proof.Gen.ReferenceIdeal
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

theorem dotRow_congr {K : ℕ} {r r' w w' : Fin K → EReal} (hr : ∀ k, r k = r' k) (hw : ∀ k, w k = w' k) :
    Cert.Spec.dotRow r w = Cert.Spec.dotRow r' w' :=
  congrArg₂ Cert.Spec.dotRow (funext hr) (funext hw)

theorem mm0_array (V : (c : Dev nD) → (b : Ref sig .tc) → Buf (Elt Ideal) ((c : Thread nD τ).loc b)) (c : Dev nD) :
    ((dat0 (F := Ideal) V c).arrAt 2 cfg0.N : FVec Ideal S50000x128 .f32)
      = Host.dotGeneral (F := Ideal) (φ₁ := .f32) (φ₂ := .f32) Cert.ReferenceIdeal.dot_S50000x128_S128x128_S50000x128_1_0_0_1_n_n none
          (V c main_arg0 : FVec Ideal S50000x128 .f32) (V c main_arg2 : FVec Ideal S128x128 .f32) := by
  funext y
  obtain ⟨i, j, rfl⟩ : ∃ (i : Fin 50000) (j : Fin 128), y = ix2 i j := ⟨y 0, y 1, eq_ix2 y⟩
  rw [MM0.out_apply V c i j]
  exact (Cert.ReferenceIdeal.Stage.dot_S50000x128_S128x128_S50000x128_1_0_0_1_n_n_apply _ _ i j).symm

theorem K1 (c : Dev nD) :
    ((dat0 (F := Ideal) (V3 m ρ) c).arrAt 2 cfg0.N : FVec Ideal S50000x128 .f32)
      = Host.dotGeneral (F := Ideal) (φ₁ := .f32) (φ₂ := .f32) Cert.ReferenceIdeal.dot_S50000x128_S128x128_S50000x128_1_0_0_1_n_n none
          (m ((c : Thread nD τ).loc main_arg0) : FVec Ideal S50000x128 .f32)
          (m ((c : Thread nD τ).loc main_arg2) : FVec Ideal S128x128 .f32) := by
  rw [mm0_array (V3 m ρ) c, Fold.V3_main_arg0 m ρ c, Fold.V3_main_arg2 m ρ c]

theorem graph_src (c : Dev nD) :
    (W3 m ρ c (Proc.devRef .tc main_v1) : IVec S800000 32) = HostSpec.srcIdx (m ((c : Thread nD τ).loc main_arg1)) :=
  HostSpec.prelude_v1 (W0 m ρ c)

theorem graph_dst (c : Dev nD) :
    (W3 m ρ c (Proc.devRef .tc main_v3) : IVec S800000 32) = HostSpec.dstIdx (m ((c : Thread nD τ).loc main_arg1)) :=
  HostSpec.prelude_v3 (W0 m ρ c)

theorem graph_coef (c : Dev nD) :
    (W3 m ρ c (Proc.devRef .tc main_v28) : FVec Ideal S800000 .f32) = HostSpec.coef (m ((c : Thread nD τ).loc main_arg1)) :=
  HostSpec.prelude_v28 (W0 m ρ c)

theorem graph_dinvSq (c : Dev nD) :
    (W3 m ρ c (Proc.devRef .tc main_v29) : FVec Ideal S50000 .f32) = HostSpec.dinvSq (m ((c : Thread nD τ).loc main_arg1)) :=
  HostSpec.prelude_v29 (W0 m ρ c)

theorem K2 (c : Dev nD) :
    (W5 m ρ c (Proc.devRef .tc main_v47) : FVec Ideal S50000x128 .f32)
      = HostSpec.agg128 ((dat0 (F := Ideal) (V3 m ρ) c).arrAt 2 cfg0.N : FVec Ideal S50000x128 .f32)
          (W3 m ρ c (Proc.devRef .tc main_v1)) (W3 m ρ c (Proc.devRef .tc main_v3))
          (W3 m ρ c (Proc.devRef .tc main_v28)) (W3 m ρ c (Proc.devRef .tc main_v29)) := by
  have h := HostSpec.after_hostOps1_v47 (W4 m ρ c)
  rw [Fold.W4_main_v30 m ρ c, Fold.W4_main_v1 m ρ c, Fold.W4_main_v3 m ρ c, Fold.W4_main_v28 m ρ c,
    Fold.W4_main_v29 m ρ c] at h
  exact h

theorem K5 (c : Dev nD) :
    (W8 m ρ c (Proc.devRef .tc main_v69) : FVec Ideal S50000x256 .f32)
      = HostSpec.agg256 ((dat2 (F := Ideal) (V6 m ρ) c).arrAt 2 cfg2.N : FVec Ideal S50000x256 .f32)
          (W3 m ρ c (Proc.devRef .tc main_v1)) (W3 m ρ c (Proc.devRef .tc main_v3))
          (W3 m ρ c (Proc.devRef .tc main_v28)) (W3 m ρ c (Proc.devRef .tc main_v29)) := by
  have h := HostSpec.after_hostOps3_v69 (W7 m ρ c)
  rw [Fold.W7_main_v52 m ρ c, Fold.W7_main_v1 m ρ c, Fold.W7_main_v3 m ρ c, Fold.W7_main_v28 m ρ c,
    Fold.W7_main_v29 m ρ c] at h
  exact h

theorem K8 (c : Dev nD) :
    (W11 m ρ c (Proc.devRef .tc main_v91) : FVec Ideal S50000x128 .f32)
      = HostSpec.agg128 ((dat4 (F := Ideal) (V9 m ρ) c).arrAt 2 cfg4.N : FVec Ideal S50000x128 .f32)
          (W3 m ρ c (Proc.devRef .tc main_v1)) (W3 m ρ c (Proc.devRef .tc main_v3))
          (W3 m ρ c (Proc.devRef .tc main_v28)) (W3 m ρ c (Proc.devRef .tc main_v29)) := by
  have h := HostSpec.after_hostOps5_v91 (W10 m ρ c)
  rw [Fold.W10_main_v74 m ρ c, Fold.W10_main_v1 m ρ c, Fold.W10_main_v3 m ρ c, Fold.W10_main_v28 m ρ c,
    Fold.W10_main_v29 m ρ c] at h
  exact h

theorem row_main_v48 (c : Dev nD) (k : Fin 128) :
    (V5 m ρ c main_v48 (ix2 (0 : Fin 1) k) : EReal) = m ((c : Thread nD τ).loc main_arg3) (ix1 k) :=
  (HostSmall.hostOps1_main_v48 (W4 m ρ c) k).trans (by rw [Fold.W4_main_arg3 m ρ c])

theorem row_main_v49 (c : Dev nD) (k : Fin 128) :
    (V5 m ρ c main_v49 (ix2 (0 : Fin 1) k) : EReal) = m ((c : Thread nD τ).loc main_arg4) (ix1 k) :=
  (HostSmall.hostOps1_main_v49 (W4 m ρ c) k).trans (by rw [Fold.W4_main_arg4 m ρ c])

theorem row_main_v50 (c : Dev nD) (k : Fin 128) :
    (V5 m ρ c main_v50 (ix2 (0 : Fin 1) k) : EReal) = m ((c : Thread nD τ).loc main_arg5) (ix1 k) :=
  (HostSmall.hostOps1_main_v50 (W4 m ρ c) k).trans (by rw [Fold.W4_main_arg5 m ρ c])

theorem row_main_v70 (c : Dev nD) (k : Fin 256) :
    (V8 m ρ c main_v70 (ix2 (0 : Fin 1) k) : EReal) = m ((c : Thread nD τ).loc main_arg7) (ix1 k) :=
  (HostSmall.hostOps3_main_v70 (W7 m ρ c) k).trans (by rw [Fold.W7_main_arg7 m ρ c])

theorem row_main_v71 (c : Dev nD) (k : Fin 256) :
    (V8 m ρ c main_v71 (ix2 (0 : Fin 1) k) : EReal) = m ((c : Thread nD τ).loc main_arg8) (ix1 k) :=
  (HostSmall.hostOps3_main_v71 (W7 m ρ c) k).trans (by rw [Fold.W7_main_arg8 m ρ c])

theorem row_main_v72 (c : Dev nD) (k : Fin 256) :
    (V8 m ρ c main_v72 (ix2 (0 : Fin 1) k) : EReal) = m ((c : Thread nD τ).loc main_arg9) (ix1 k) :=
  (HostSmall.hostOps3_main_v72 (W7 m ρ c) k).trans (by rw [Fold.W7_main_arg9 m ρ c])

theorem row_main_v92 (c : Dev nD) (k : Fin 128) :
    (V11 m ρ c main_v92 (ix2 (0 : Fin 1) k) : EReal) = m ((c : Thread nD τ).loc main_arg11) (ix1 k) :=
  (HostSmall.hostOps5_main_v92 (W10 m ρ c) k).trans (by rw [Fold.W10_main_arg11 m ρ c])

theorem row_main_v93 (c : Dev nD) (k : Fin 128) :
    (V11 m ρ c main_v93 (ix2 (0 : Fin 1) k) : EReal) = m ((c : Thread nD τ).loc main_arg12) (ix1 k) :=
  (HostSmall.hostOps5_main_v93 (W10 m ρ c) k).trans (by rw [Fold.W10_main_arg12 m ρ c])

theorem row_main_v94 (c : Dev nD) (k : Fin 128) :
    (V11 m ρ c main_v94 (ix2 (0 : Fin 1) k) : EReal) = m ((c : Thread nD τ).loc main_arg13) (ix1 k) :=
  (HostSmall.hostOps5_main_v94 (W10 m ρ c) k).trans (by rw [Fold.W10_main_arg13 m ρ c])

theorem row_main_v96 (c : Dev nD) (k : Fin 64) :
    (V13 m ρ c main_v96 (ix2 (0 : Fin 1) k) : EReal) = m ((c : Thread nD τ).loc main_arg15) (ix1 k) :=
  (HostSmall.hostOps6_main_v96 (W12 m ρ c) k).trans (by rw [Fold.W12_main_arg15 m ρ c])

theorem row_main_v97 (c : Dev nD) (k : Fin 64) :
    (V13 m ρ c main_v97 (ix2 (0 : Fin 1) k) : EReal) = m ((c : Thread nD τ).loc main_arg16) (ix1 k) :=
  (HostSmall.hostOps6_main_v97 (W12 m ρ c) k).trans (by rw [Fold.W12_main_arg16 m ρ c])

theorem row_main_v98 (c : Dev nD) (k : Fin 64) :
    (V13 m ρ c main_v98 (ix2 (0 : Fin 1) k) : EReal) = m ((c : Thread nD τ).loc main_arg17) (ix1 k) :=
  (HostSmall.hostOps6_main_v98 (W12 m ρ c) k).trans (by rw [Fold.W12_main_arg17 m ρ c])

theorem K3 (c : Dev nD) :
    ((dat1 (F := Ideal) (V5 m ρ) c).arrAt 4 cfg1.N : FVec Ideal S50000x128 .f32)
      = Cert.ReferenceIdeal.Stage.lnElu128 (W5 m ρ c (Proc.devRef .tc main_v47) : FVec Ideal S50000x128 .f32)
          (m ((c : Thread nD τ).loc main_arg3)) (m ((c : Thread nD τ).loc main_arg4)) (m ((c : Thread nD τ).loc main_arg5)) :=
  Arr.ln1_array (V5 m ρ) c _ _ _ (row_main_v48 m ρ c) (row_main_v49 m ρ c) (row_main_v50 m ρ c)

theorem K4 (c : Dev nD) :
    ((dat2 (F := Ideal) (V6 m ρ) c).arrAt 2 cfg2.N : FVec Ideal S50000x256 .f32)
      = Host.dotGeneral (F := Ideal) (φ₁ := .f32) (φ₂ := .f32) Cert.ReferenceIdeal.dot_S50000x128_S128x256_S50000x256_1_0_0_1_n_n none
          ((dat1 (F := Ideal) (V5 m ρ) c).arrAt 4 cfg1.N : FVec Ideal S50000x128 .f32)
          (m ((c : Thread nD τ).loc main_arg6) : FVec Ideal S128x256 .f32) := by
  rw [Arr.mm2_array (V6 m ρ) c, Fold.V6_main_v51 m ρ c, Fold.V6_main_arg6 m ρ c]

theorem K6 (c : Dev nD) :
    ((dat3 (F := Ideal) (V8 m ρ) c).arrAt 4 cfg3.N : FVec Ideal S50000x256 .f32)
      = Cert.ReferenceIdeal.Stage.lnElu256 (W8 m ρ c (Proc.devRef .tc main_v69) : FVec Ideal S50000x256 .f32)
          (m ((c : Thread nD τ).loc main_arg7)) (m ((c : Thread nD τ).loc main_arg8)) (m ((c : Thread nD τ).loc main_arg9)) :=
  Arr.ln3_array (V8 m ρ) c _ _ _ (row_main_v70 m ρ c) (row_main_v71 m ρ c) (row_main_v72 m ρ c)

theorem K7 (c : Dev nD) :
    ((dat4 (F := Ideal) (V9 m ρ) c).arrAt 2 cfg4.N : FVec Ideal S50000x128 .f32)
      = Host.dotGeneral (F := Ideal) (φ₁ := .f32) (φ₂ := .f32) Cert.ReferenceIdeal.dot_S50000x256_S256x128_S50000x128_1_0_0_1_n_n none
          ((dat3 (F := Ideal) (V8 m ρ) c).arrAt 4 cfg3.N : FVec Ideal S50000x256 .f32)
          (m ((c : Thread nD τ).loc main_arg10) : FVec Ideal S256x128 .f32) := by
  rw [Arr.mm4_array (V9 m ρ) c, Fold.V9_main_v73 m ρ c, Fold.V9_main_arg10 m ρ c]

theorem K9 (c : Dev nD) :
    ((dat5 (F := Ideal) (V11 m ρ) c).arrAt 4 cfg5.N : FVec Ideal S50000x128 .f32)
      = Cert.ReferenceIdeal.Stage.lnElu128 (W11 m ρ c (Proc.devRef .tc main_v91) : FVec Ideal S50000x128 .f32)
          (m ((c : Thread nD τ).loc main_arg11)) (m ((c : Thread nD τ).loc main_arg12)) (m ((c : Thread nD τ).loc main_arg13)) :=
  Arr.ln5_array (V11 m ρ) c _ _ _ (row_main_v92 m ρ c) (row_main_v93 m ρ c) (row_main_v94 m ρ c)

theorem K10 (c : Dev nD) :
    ((dat6 (F := Ideal) (V13 m ρ) c).arrAt 5 cfg6.N : FVec Ideal S50000x64 .f32)
      = Cert.ReferenceIdeal.Stage.lnElu64
          (Host.dotGeneral (F := Ideal) (φ₁ := .f32) (φ₂ := .f32) Cert.ReferenceIdeal.dot_S50000x128_S128x64_S50000x64_1_0_0_1_n_n none
            ((dat5 (F := Ideal) (V11 m ρ) c).arrAt 4 cfg5.N : FVec Ideal S50000x128 .f32)
            (m ((c : Thread nD τ).loc main_arg14) : FVec Ideal S128x64 .f32))
          (m ((c : Thread nD τ).loc main_arg15)) (m ((c : Thread nD τ).loc main_arg16)) (m ((c : Thread nD τ).loc main_arg17)) := by
  rw [Arr.head6_array (V13 m ρ) c (m ((c : Thread nD τ).loc main_arg15)) (m ((c : Thread nD τ).loc main_arg16)) (m ((c : Thread nD τ).loc main_arg17))
    (row_main_v96 m ρ c) (row_main_v97 m ρ c) (row_main_v98 m ρ c), Fold.V13_main_v95_arr m ρ c, Fold.V13_main_arg14 m ρ c]

theorem K11 (c : Dev nD) :
    (W21 m ρ c (Proc.devRef .tc main_v104) : FVec Ideal S50000x500 .f32)
      = addf
          (Host.dotGeneral (F := Ideal) (φ₁ := .f32) (φ₂ := .f32) Cert.ReferenceIdeal.dot_S50000x64_S64x500_S50000x500_1_0_0_1_n_n none
            ((dat6 (F := Ideal) (V13 m ρ) c).arrAt 5 cfg6.N : FVec Ideal S50000x64 .f32)
            (m ((c : Thread nD τ).loc main_arg18) : FVec Ideal S64x500 .f32))
          (broadcastInDim Cert.ReferenceIdeal.S50000x500 ![0, 1] Cert.ReferenceIdeal.Facts₀.bcast_S1x500_S50000x500_0_1
            (broadcastInDim Cert.ReferenceIdeal.S1x500 ![1] Cert.ReferenceIdeal.Facts₀.bcast_S500_S1x500_1
              (m ((c : Thread nD τ).loc main_arg19) : FVec Ideal S500 .f32))) := by
  funext y
  obtain ⟨i, j, rfl⟩ : ∃ (i : Fin 50000) (j : Fin 500), y = ix2 i j := ⟨y 0, y 1, eq_ix2 y⟩
  have hj : j.val < 512 := by have := j.isLt; omega
  rw [addf_apply, Cert.ReferenceIdeal.Stage.dot_S50000x64_S64x500_S50000x500_1_0_0_1_n_n_apply,
    broadcastInDim_apply ![0, 1] _ _ (ix2 i j) (ix2 (0 : Fin 1) j) (fun a => match a with | ⟨0, _⟩ => rfl | ⟨1, _⟩ => rfl),
    broadcastInDim_apply ![1] _ _ (ix2 (0 : Fin 1) j) (ix1 j) (fun a => match a with | ⟨0, _⟩ => rfl)]
  refine (HostSmall.hostOps8_main_v104 (W20 m ρ c) i j).trans ?_
  rw [Fold.W20_main_v103 m ρ c, Fin7.out_apply (V19 m ρ) c i ⟨j.val, hj⟩]
  refine congrArg₂ (· + ·) (dotRow_congr (fun l => ?_) (fun l => ?_)) ?_
  · rw [Fold.V19_main_v99_arr m ρ c]
  · refine (HostSmall.afterPads_main_v100 (W14 m ρ c) l ⟨j.val, hj⟩).trans ?_
    rw [dif_pos j.isLt, Fold.W14_main_arg18 m ρ c]
  · refine (HostSmall.afterPads_main_v102 (W14 m ρ c) ⟨j.val, hj⟩).trans ?_
    rw [dif_pos j.isLt, Fold.W14_main_arg19 m ρ c]

/-- The stages' results composed: the result buffer holds the network's function of the twenty inputs. -/
theorem kval (c : Dev nD) :
    (W21 m ρ c (Proc.devRef .tc main_v104) : FVec Ideal S50000x500 .f32)
      = Cert.Final.out (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18)) (m ((c : Thread nD τ).loc main_arg19)) := by
  rw [K11 m ρ c, K10 m ρ c, K9 m ρ c, K8 m ρ c, K7 m ρ c, K6 m ρ c, K5 m ρ c, K4 m ρ c, K3 m ρ c, K2 m ρ c, K1 m ρ c,
    graph_src m ρ c, graph_dst m ρ c, graph_coef m ρ c, graph_dinvSq m ρ c]
  rfl

end Cert.KernelIdeal.Val

end
-- ==== Proof.RefOps.lean ====
/- The reference program's @main as a LIST of its host operations, in program order, in named slices.
   One entry per StableHLO operation: a statement of @main is its own entry; a call of an outlined function
   (`_where`, `elu`, ...) is the callee's operations in order, over the call's record of buffers, the callee's parameters
   replaced by the call's operands (a call nested in the callee likewise, over the nested record). A slice ends
   wherever a printed window `main_partK` ends and wherever a stage of the network ends: the aggregation of a
   graph-convolution layer (A), its bias / layer-norm / ELU (N), the dense head (H), the final product (Fn). -/
import proofs.«140160_j6760278524492_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Stage A1 within the printed window `main_part0`: the statements binding %0 … %47, 62 operations. -/
abbrev opsA1_p0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),  -- %0
    reshape main_v0 main_v1 rfl shapeCasts_S1x800000_S800000,  -- %1
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),  -- %2
    reshape main_v2 main_v3 rfl shapeCasts_S1x800000_S800000,  -- %3
    binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),  -- %4
    nullary main_cst (constant S_ .f32 0x3F800000#32),  -- %cst
    unary main_cst main_v5 (broadcastInDim S800000 ![] bcast_S_S800000 : (⟨S_, .f32⟩ : BufTy).Contents (Elt F) → (⟨S800000, .f32⟩ : BufTy).Contents (Elt F)),  -- %5
    nullary main_cst_0 (constant S_ .f32 0x00000000#32),  -- %cst_0
    unary main_cst_0 main_v6 (broadcastInDim S50000 ![] bcast_S_S50000 : (⟨S_, .f32⟩ : BufTy).Contents (Elt F) → (⟨S50000, .f32⟩ : BufTy).Contents (Elt F)),  -- %6
    unary main_v3 main_v7 (broadcastInDim S800000x1 ![0] bcast_S800000_S800000x1_0 : (⟨S800000, .i32⟩ : BufTy).Contents (Elt F) → (⟨S800000x1, .i32⟩ : BufTy).Contents (Elt F)),  -- %7
    ternary main_v6 main_v7 main_v5 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),  -- %8
    nullary main_cst_1 (constant S_ .f32 0x3F800000#32),  -- %cst_1
    unary main_cst_1 main_v9 (broadcastInDim S50000 ![] bcast_S_S50000 : (⟨S_, .f32⟩ : BufTy).Contents (Elt F) → (⟨S50000, .f32⟩ : BufTy).Contents (Elt F)),  -- %9
    binary main_v8 main_v9 main_v10 (addf : (⟨S50000, .f32⟩ : BufTy).Contents (Elt F) → (⟨S50000, .f32⟩ : BufTy).Contents (Elt F) → (⟨S50000, .f32⟩ : BufTy).Contents (Elt F)),  -- %10
    nullary main_cst_2 (constant S_ .f32 0x00000000#32),  -- %cst_2
    unary main_cst_2 main_v11 (broadcastInDim S50000 ![] bcast_S_S50000 : (⟨S_, .f32⟩ : BufTy).Contents (Elt F) → (⟨S50000, .f32⟩ : BufTy).Contents (Elt F)),  -- %11
    binary main_v10 main_v11 main_v12 (cmpf .ogt : (⟨S50000, .f32⟩ : BufTy).Contents (Elt F) → (⟨S50000, .f32⟩ : BufTy).Contents (Elt F) → (⟨S50000, .i1⟩ : BufTy).Contents (Elt F)),  -- %12
    unary main_v10 main_v13 (Host.rsqrt : (⟨S50000, .f32⟩ : BufTy).Contents (Elt F) → (⟨S50000, .f32⟩ : BufTy).Contents (Elt F)),  -- %13
    nullary main_cst_3 (constant S_ .f32 0x00000000#32),  -- %cst_3
    TRef.unary (.of main_cst_3 : TRef sig ⟨S_, .f32⟩) main_call0.v0 id,  -- %14: @_where's %0
    TRef.unary main_call0.v0 main_call0.v1 (broadcastInDim S50000 ![] bcast_S_S50000),  -- %14: @_where's %1
    TRef.ternary (.of main_v12 : TRef sig ⟨S50000, .i1⟩) (.of main_v13 : TRef sig ⟨S50000, .f32⟩) main_call0.v1 main_call0.v2 select,  -- %14: @_where's %2
    nullary main_c (constantI S_ 32 0#32),  -- %c
    unary main_c main_v15 (broadcastInDim S800000 ![] bcast_S_S800000 : (⟨S_, .i32⟩ : BufTy).Contents (Elt F) → (⟨S800000, .i32⟩ : BufTy).Contents (Elt F)),  -- %15
    binary main_v1 main_v15 main_v16 (cmpi .slt : (⟨S800000, .i32⟩ : BufTy).Contents (Elt F) → (⟨S800000, .i32⟩ : BufTy).Contents (Elt F) → (⟨S800000, .i1⟩ : BufTy).Contents (Elt F)),  -- %16
    nullary main_c_4 (constantI S_ 32 50000#32),  -- %c_4
    unary main_c_4 main_v17 (broadcastInDim S800000 ![] bcast_S_S800000 : (⟨S_, .i32⟩ : BufTy).Contents (Elt F) → (⟨S800000, .i32⟩ : BufTy).Contents (Elt F)),  -- %17
    binary main_v1 main_v17 main_v18 (addi : (⟨S800000, .i32⟩ : BufTy).Contents (Elt F) → (⟨S800000, .i32⟩ : BufTy).Contents (Elt F) → (⟨S800000, .i32⟩ : BufTy).Contents (Elt F)),  -- %18
    ternary main_v16 main_v18 main_v1 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),  -- %19
    unary main_v19 main_v20 (broadcastInDim S800000x1 ![0] bcast_S800000_S800000x1_0 : (⟨S800000, .i32⟩ : BufTy).Contents (Elt F) → (⟨S800000x1, .i32⟩ : BufTy).Contents (Elt F)),  -- %20
    binary main_v14 main_v20 main_v21 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),  -- %21
    nullary main_c_5 (constantI S_ 32 0#32),  -- %c_5
    unary main_c_5 main_v22 (broadcastInDim S800000 ![] bcast_S_S800000 : (⟨S_, .i32⟩ : BufTy).Contents (Elt F) → (⟨S800000, .i32⟩ : BufTy).Contents (Elt F)),  -- %22
    binary main_v3 main_v22 main_v23 (cmpi .slt : (⟨S800000, .i32⟩ : BufTy).Contents (Elt F) → (⟨S800000, .i32⟩ : BufTy).Contents (Elt F) → (⟨S800000, .i1⟩ : BufTy).Contents (Elt F)),  -- %23
    nullary main_c_6 (constantI S_ 32 50000#32),  -- %c_6
    unary main_c_6 main_v24 (broadcastInDim S800000 ![] bcast_S_S800000 : (⟨S_, .i32⟩ : BufTy).Contents (Elt F) → (⟨S800000, .i32⟩ : BufTy).Contents (Elt F)),  -- %24
    binary main_v3 main_v24 main_v25 (addi : (⟨S800000, .i32⟩ : BufTy).Contents (Elt F) → (⟨S800000, .i32⟩ : BufTy).Contents (Elt F) → (⟨S800000, .i32⟩ : BufTy).Contents (Elt F)),  -- %25
    ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),  -- %26
    unary main_v26 main_v27 (broadcastInDim S800000x1 ![0] bcast_S800000_S800000x1_0 : (⟨S800000, .i32⟩ : BufTy).Contents (Elt F) → (⟨S800000x1, .i32⟩ : BufTy).Contents (Elt F)),  -- %27
    binary main_v14 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),  -- %28
    binary main_v21 main_v28 main_v29 (mulf : (⟨S800000, .f32⟩ : BufTy).Contents (Elt F) → (⟨S800000, .f32⟩ : BufTy).Contents (Elt F) → (⟨S800000, .f32⟩ : BufTy).Contents (Elt F)),  -- %29
    nullary main_c_7 (constantI S_ 32 0#32),  -- %c_7
    unary main_c_7 main_v30 (broadcastInDim S800000 ![] bcast_S_S800000 : (⟨S_, .i32⟩ : BufTy).Contents (Elt F) → (⟨S800000, .i32⟩ : BufTy).Contents (Elt F)),  -- %30
    binary main_v1 main_v30 main_v31 (cmpi .slt : (⟨S800000, .i32⟩ : BufTy).Contents (Elt F) → (⟨S800000, .i32⟩ : BufTy).Contents (Elt F) → (⟨S800000, .i1⟩ : BufTy).Contents (Elt F)),  -- %31
    nullary main_c_8 (constantI S_ 32 50000#32),  -- %c_8
    unary main_c_8 main_v32 (broadcastInDim S800000 ![] bcast_S_S800000 : (⟨S_, .i32⟩ : BufTy).Contents (Elt F) → (⟨S800000, .i32⟩ : BufTy).Contents (Elt F)),  -- %32
    binary main_v1 main_v32 main_v33 (addi : (⟨S800000, .i32⟩ : BufTy).Contents (Elt F) → (⟨S800000, .i32⟩ : BufTy).Contents (Elt F) → (⟨S800000, .i32⟩ : BufTy).Contents (Elt F)),  -- %33
    ternary main_v31 main_v33 main_v1 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),  -- %34
    unary main_v34 main_v35 (broadcastInDim S800000x1 ![0] bcast_S800000_S800000x1_0 : (⟨S800000, .i32⟩ : BufTy).Contents (Elt F) → (⟨S800000x1, .i32⟩ : BufTy).Contents (Elt F)),  -- %35
    binary main_v4 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),  -- %36
    unary main_v29 main_v37 (broadcastInDim S800000x1 ![0] bcast_S800000_S800000x1_0 : (⟨S800000, .f32⟩ : BufTy).Contents (Elt F) → (⟨S800000x1, .f32⟩ : BufTy).Contents (Elt F)),  -- %37
    unary main_v37 main_v38 (broadcastInDim S800000x128 ![0, 1] bcast_S800000x1_S800000x128_0_1 : (⟨S800000x1, .f32⟩ : BufTy).Contents (Elt F) → (⟨S800000x128, .f32⟩ : BufTy).Contents (Elt F)),  -- %38
    binary main_v36 main_v38 main_v39 (mulf : (⟨S800000x128, .f32⟩ : BufTy).Contents (Elt F) → (⟨S800000x128, .f32⟩ : BufTy).Contents (Elt F) → (⟨S800000x128, .f32⟩ : BufTy).Contents (Elt F)),  -- %39
    nullary main_cst_9 (constant S_ .f32 0x00000000#32),  -- %cst_9
    unary main_cst_9 main_v40 (broadcastInDim S50000x128 ![] bcast_S_S50000x128 : (⟨S_, .f32⟩ : BufTy).Contents (Elt F) → (⟨S50000x128, .f32⟩ : BufTy).Contents (Elt F)),  -- %40
    unary main_v3 main_v41 (broadcastInDim S800000x1 ![0] bcast_S800000_S800000x1_0 : (⟨S800000, .i32⟩ : BufTy).Contents (Elt F) → (⟨S800000x1, .i32⟩ : BufTy).Contents (Elt F)),  -- %41
    ternary main_v40 main_v41 main_v39 main_v42 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),  -- %42
    binary main_v14 main_v14 main_v43 (mulf : (⟨S50000, .f32⟩ : BufTy).Contents (Elt F) → (⟨S50000, .f32⟩ : BufTy).Contents (Elt F) → (⟨S50000, .f32⟩ : BufTy).Contents (Elt F)),  -- %43
    unary main_v43 main_v44 (broadcastInDim S50000x1 ![0] bcast_S50000_S50000x1_0 : (⟨S50000, .f32⟩ : BufTy).Contents (Elt F) → (⟨S50000x1, .f32⟩ : BufTy).Contents (Elt F)),  -- %44
    unary main_v44 main_v45 (broadcastInDim S50000x128 ![0, 1] bcast_S50000x1_S50000x128_0_1 : (⟨S50000x1, .f32⟩ : BufTy).Contents (Elt F) → (⟨S50000x128, .f32⟩ : BufTy).Contents (Elt F)),  -- %45
    binary main_v4 main_v45 main_v46 (mulf : (⟨S50000x128, .f32⟩ : BufTy).Contents (Elt F) → (⟨S50000x128, .f32⟩ : BufTy).Contents (Elt F) → (⟨S50000x128, .f32⟩ : BufTy).Contents (Elt F)),  -- %46
    binary main_v42 main_v46 main_v47 (addf : (⟨S50000x128, .f32⟩ : BufTy).Contents (Elt F) → (⟨S50000x128, .f32⟩ : BufTy).Contents (Elt F) → (⟨S50000x128, .f32⟩ : BufTy).Contents (Elt F)) ]  -- %47

/-- Stage N1 within the printed window `main_part1`: the statements binding %48 … %75, 47 operations. -/
abbrev opsN1_p1 : List (HloOp τ sig (Elt F)) :=
  [ unary main_arg3 main_v48 (broadcastInDim S1x128 ![1] bcast_S128_S1x128_1 : (⟨S128, .f32⟩ : BufTy).Contents (Elt F) → (⟨S1x128, .f32⟩ : BufTy).Contents (Elt F)),  -- %48
    unary main_v48 main_v49 (broadcastInDim S50000x128 ![0, 1] bcast_S1x128_S50000x128_0_1 : (⟨S1x128, .f32⟩ : BufTy).Contents (Elt F) → (⟨S50000x128, .f32⟩ : BufTy).Contents (Elt F)),  -- %49
    binary main_v47 main_v49 main_v50 (addf : (⟨S50000x128, .f32⟩ : BufTy).Contents (Elt F) → (⟨S50000x128, .f32⟩ : BufTy).Contents (Elt F) → (⟨S50000x128, .f32⟩ : BufTy).Contents (Elt F)),  -- %50
    nullary main_cst_10 (constant S_ .f32 0x00000000#32),  -- %cst_10
    binary main_v50 main_cst_10 main_v51 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),  -- %51
    unary main_v51 main_v52 (broadcastInDim S50000x1 ![0] bcast_S50000_S50000x1_0 : (⟨S50000, .f32⟩ : BufTy).Contents (Elt F) → (⟨S50000x1, .f32⟩ : BufTy).Contents (Elt F)),  -- %52
    nullary main_cst_11 (constant S_ .f32 0x43000000#32),  -- %cst_11
    unary main_cst_11 main_v53 (broadcastInDim S50000x1 ![] bcast_S_S50000x1 : (⟨S_, .f32⟩ : BufTy).Contents (Elt F) → (⟨S50000x1, .f32⟩ : BufTy).Contents (Elt F)),  -- %53
    binary main_v52 main_v53 main_v54 (Host.divf : (⟨S50000x1, .f32⟩ : BufTy).Contents (Elt F) → (⟨S50000x1, .f32⟩ : BufTy).Contents (Elt F) → (⟨S50000x1, .f32⟩ : BufTy).Contents (Elt F)),  -- %54
    unary main_v54 main_v55 (broadcastInDim S50000x128 ![0, 1] bcast_S50000x1_S50000x128_0_1 : (⟨S50000x1, .f32⟩ : BufTy).Contents (Elt F) → (⟨S50000x128, .f32⟩ : BufTy).Contents (Elt F)),  -- %55
    binary main_v50 main_v55 main_v56 (subf : (⟨S50000x128, .f32⟩ : BufTy).Contents (Elt F) → (⟨S50000x128, .f32⟩ : BufTy).Contents (Elt F) → (⟨S50000x128, .f32⟩ : BufTy).Contents (Elt F)),  -- %56
    binary main_v56 main_v56 main_v57 (mulf : (⟨S50000x128, .f32⟩ : BufTy).Contents (Elt F) → (⟨S50000x128, .f32⟩ : BufTy).Contents (Elt F) → (⟨S50000x128, .f32⟩ : BufTy).Contents (Elt F)),  -- %57
    nullary main_cst_12 (constant S_ .f32 0x00000000#32),  -- %cst_12
    binary main_v57 main_cst_12 main_v58 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),  -- %58
    unary main_v58 main_v59 (broadcastInDim S50000x1 ![0] bcast_S50000_S50000x1_0 : (⟨S50000, .f32⟩ : BufTy).Contents (Elt F) → (⟨S50000x1, .f32⟩ : BufTy).Contents (Elt F)),  -- %59
    nullary main_cst_13 (constant S_ .f32 0x43000000#32),  -- %cst_13
    unary main_cst_13 main_v60 (broadcastInDim S50000x1 ![] bcast_S_S50000x1 : (⟨S_, .f32⟩ : BufTy).Contents (Elt F) → (⟨S50000x1, .f32⟩ : BufTy).Contents (Elt F)),  -- %60
    binary main_v59 main_v60 main_v61 (Host.divf : (⟨S50000x1, .f32⟩ : BufTy).Contents (Elt F) → (⟨S50000x1, .f32⟩ : BufTy).Contents (Elt F) → (⟨S50000x1, .f32⟩ : BufTy).Contents (Elt F)),  -- %61
    unary main_v54 main_v62 (broadcastInDim S50000x128 ![0, 1] bcast_S50000x1_S50000x128_0_1 : (⟨S50000x1, .f32⟩ : BufTy).Contents (Elt F) → (⟨S50000x128, .f32⟩ : BufTy).Contents (Elt F)),  -- %62
    binary main_v50 main_v62 main_v63 (subf : (⟨S50000x128, .f32⟩ : BufTy).Contents (Elt F) → (⟨S50000x128, .f32⟩ : BufTy).Contents (Elt F) → (⟨S50000x128, .f32⟩ : BufTy).Contents (Elt F)),  -- %63
    nullary main_cst_14 (constant S_ .f32 0x3727C5AC#32),  -- %cst_14
    unary main_cst_14 main_v64 (broadcastInDim S50000x1 ![] bcast_S_S50000x1 : (⟨S_, .f32⟩ : BufTy).Contents (Elt F) → (⟨S50000x1, .f32⟩ : BufTy).Contents (Elt F)),  -- %64
    binary main_v61 main_v64 main_v65 (addf : (⟨S50000x1, .f32⟩ : BufTy).Contents (Elt F) → (⟨S50000x1, .f32⟩ : BufTy).Contents (Elt F) → (⟨S50000x1, .f32⟩ : BufTy).Contents (Elt F)),  -- %65
    unary main_v65 main_v66 (Host.rsqrt : (⟨S50000x1, .f32⟩ : BufTy).Contents (Elt F) → (⟨S50000x1, .f32⟩ : BufTy).Contents (Elt F)),  -- %66
    unary main_v66 main_v67 (broadcastInDim S50000x128 ![0, 1] bcast_S50000x1_S50000x128_0_1 : (⟨S50000x1, .f32⟩ : BufTy).Contents (Elt F) → (⟨S50000x128, .f32⟩ : BufTy).Contents (Elt F)),  -- %67
    binary main_v63 main_v67 main_v68 (mulf : (⟨S50000x128, .f32⟩ : BufTy).Contents (Elt F) → (⟨S50000x128, .f32⟩ : BufTy).Contents (Elt F) → (⟨S50000x128, .f32⟩ : BufTy).Contents (Elt F)),  -- %68
    unary main_arg4 main_v69 (broadcastInDim S1x128 ![1] bcast_S128_S1x128_1 : (⟨S128, .f32⟩ : BufTy).Contents (Elt F) → (⟨S1x128, .f32⟩ : BufTy).Contents (Elt F)),  -- %69
    unary main_v69 main_v70 (broadcastInDim S50000x128 ![0, 1] bcast_S1x128_S50000x128_0_1 : (⟨S1x128, .f32⟩ : BufTy).Contents (Elt F) → (⟨S50000x128, .f32⟩ : BufTy).Contents (Elt F)),  -- %70
    binary main_v68 main_v70 main_v71 (mulf : (⟨S50000x128, .f32⟩ : BufTy).Contents (Elt F) → (⟨S50000x128, .f32⟩ : BufTy).Contents (Elt F) → (⟨S50000x128, .f32⟩ : BufTy).Contents (Elt F)),  -- %71
    unary main_arg5 main_v72 (broadcastInDim S1x128 ![1] bcast_S128_S1x128_1 : (⟨S128, .f32⟩ : BufTy).Contents (Elt F) → (⟨S1x128, .f32⟩ : BufTy).Contents (Elt F)),  -- %72
    unary main_v72 main_v73 (broadcastInDim S50000x128 ![0, 1] bcast_S1x128_S50000x128_0_1 : (⟨S1x128, .f32⟩ : BufTy).Contents (Elt F) → (⟨S50000x128, .f32⟩ : BufTy).Contents (Elt F)),  -- %73
    binary main_v71 main_v73 main_v74 (addf : (⟨S50000x128, .f32⟩ : BufTy).Contents (Elt F) → (⟨S50000x128, .f32⟩ : BufTy).Contents (Elt F) → (⟨S50000x128, .f32⟩ : BufTy).Contents (Elt F)),  -- %74
    TRef.nullary main_call1.cst (constant S_ .f32 0x00000000#32),  -- %75: @elu's %cst
    TRef.unary main_call1.cst main_call1.v0 (broadcastInDim S50000x128 ![] bcast_S_S50000x128),  -- %75: @elu's %0
    TRef.binary (.of main_v74 : TRef sig ⟨S50000x128, .f32⟩) main_call1.v0 main_call1.v1 (cmpf .ogt),  -- %75: @elu's %1
    TRef.nullary main_call1.cst_0 (constant S_ .f32 0x00000000#32),  -- %75: @elu's %cst_0
    TRef.unary main_call1.cst_0 main_call1.v2 (broadcastInDim S50000x128 ![] bcast_S_S50000x128),  -- %75: @elu's %2
    TRef.binary (.of main_v74 : TRef sig ⟨S50000x128, .f32⟩) main_call1.v2 main_call1.v3 (cmpf .ogt),  -- %75: @elu's %3
    TRef.nullary main_call1.cst_1 (constant S_ .f32 0x00000000#32),  -- %75: @elu's %cst_1
    TRef.unary main_call1.cst_1 main_call1.call0.v0 id,  -- %75: @_where_0's %0
    TRef.unary main_call1.call0.v0 main_call1.call0.v1 (broadcastInDim S50000x128 ![] bcast_S_S50000x128),  -- %75: @_where_0's %1
    TRef.ternary main_call1.v3 main_call1.call0.v1 (.of main_v74 : TRef sig ⟨S50000x128, .f32⟩) main_call1.call0.v2 select,  -- %75: @_where_0's %2
    TRef.unary main_call1.call0.v2 main_call1.v5 Host.expm1,  -- %75: @elu's %5
    TRef.nullary main_call1.cst_2 (constant S_ .f32 0x3F800000#32),  -- %75: @elu's %cst_2
    TRef.unary main_call1.cst_2 main_call1.v6 (broadcastInDim S50000x128 ![] bcast_S_S50000x128),  -- %75: @elu's %6
    TRef.binary main_call1.v6 main_call1.v5 main_call1.v7 mulf,  -- %75: @elu's %7
    TRef.ternary main_call1.v1 (.of main_v74 : TRef sig ⟨S50000x128, .f32⟩) main_call1.v7 main_call1.call1.v0 select ]  -- %75: @_where_1's %0

/-- Stage A2 within the printed window `main_part1`: the statements binding %76 … %94, 29 operations. -/
abbrev opsA2_p1 : List (HloOp τ sig (Elt F)) :=
  [ binary main_v75 main_arg6 main_v76 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),  -- %76
    nullary main_cst_15 (constant S_ .f32 0x3F800000#32),  -- %cst_15
    unary main_cst_15 main_v77 (broadcastInDim S800000 ![] bcast_S_S800000 : (⟨S_, .f32⟩ : BufTy).Contents (Elt F) → (⟨S800000, .f32⟩ : BufTy).Contents (Elt F)),  -- %77
    nullary main_cst_16 (constant S_ .f32 0x00000000#32),  -- %cst_16
    unary main_cst_16 main_v78 (broadcastInDim S50000 ![] bcast_S_S50000 : (⟨S_, .f32⟩ : BufTy).Contents (Elt F) → (⟨S50000, .f32⟩ : BufTy).Contents (Elt F)),  -- %78
    unary main_v3 main_v79 (broadcastInDim S800000x1 ![0] bcast_S800000_S800000x1_0 : (⟨S800000, .i32⟩ : BufTy).Contents (Elt F) → (⟨S800000x1, .i32⟩ : BufTy).Contents (Elt F)),  -- %79
    ternary main_v78 main_v79 main_v77 main_v80 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),  -- %80
    nullary main_cst_17 (constant S_ .f32 0x3F800000#32),  -- %cst_17
    unary main_cst_17 main_v81 (broadcastInDim S50000 ![] bcast_S_S50000 : (⟨S_, .f32⟩ : BufTy).Contents (Elt F) → (⟨S50000, .f32⟩ : BufTy).Contents (Elt F)),  -- %81
    binary main_v80 main_v81 main_v82 (addf : (⟨S50000, .f32⟩ : BufTy).Contents (Elt F) → (⟨S50000, .f32⟩ : BufTy).Contents (Elt F) → (⟨S50000, .f32⟩ : BufTy).Contents (Elt F)),  -- %82
    nullary main_cst_18 (constant S_ .f32 0x00000000#32),  -- %cst_18
    unary main_cst_18 main_v83 (broadcastInDim S50000 ![] bcast_S_S50000 : (⟨S_, .f32⟩ : BufTy).Contents (Elt F) → (⟨S50000, .f32⟩ : BufTy).Contents (Elt F)),  -- %83
    binary main_v82 main_v83 main_v84 (cmpf .ogt : (⟨S50000, .f32⟩ : BufTy).Contents (Elt F) → (⟨S50000, .f32⟩ : BufTy).Contents (Elt F) → (⟨S50000, .i1⟩ : BufTy).Contents (Elt F)),  -- %84
    unary main_v82 main_v85 (Host.rsqrt : (⟨S50000, .f32⟩ : BufTy).Contents (Elt F) → (⟨S50000, .f32⟩ : BufTy).Contents (Elt F)),  -- %85
    nullary main_cst_19 (constant S_ .f32 0x00000000#32),  -- %cst_19
    TRef.unary (.of main_cst_19 : TRef sig ⟨S_, .f32⟩) main_call2.v0 id,  -- %86: @_where's %0
    TRef.unary main_call2.v0 main_call2.v1 (broadcastInDim S50000 ![] bcast_S_S50000),  -- %86: @_where's %1
    TRef.ternary (.of main_v84 : TRef sig ⟨S50000, .i1⟩) (.of main_v85 : TRef sig ⟨S50000, .f32⟩) main_call2.v1 main_call2.v2 select,  -- %86: @_where's %2
    nullary main_c_20 (constantI S_ 32 0#32),  -- %c_20
    unary main_c_20 main_v87 (broadcastInDim S800000 ![] bcast_S_S800000 : (⟨S_, .i32⟩ : BufTy).Contents (Elt F) → (⟨S800000, .i32⟩ : BufTy).Contents (Elt F)),  -- %87
    binary main_v1 main_v87 main_v88 (cmpi .slt : (⟨S800000, .i32⟩ : BufTy).Contents (Elt F) → (⟨S800000, .i32⟩ : BufTy).Contents (Elt F) → (⟨S800000, .i1⟩ : BufTy).Contents (Elt F)),  -- %88
    nullary main_c_21 (constantI S_ 32 50000#32),  -- %c_21
    unary main_c_21 main_v89 (broadcastInDim S800000 ![] bcast_S_S800000 : (⟨S_, .i32⟩ : BufTy).Contents (Elt F) → (⟨S800000, .i32⟩ : BufTy).Contents (Elt F)),  -- %89
    binary main_v1 main_v89 main_v90 (addi : (⟨S800000, .i32⟩ : BufTy).Contents (Elt F) → (⟨S800000, .i32⟩ : BufTy).Contents (Elt F) → (⟨S800000, .i32⟩ : BufTy).Contents (Elt F)),  -- %90
    ternary main_v88 main_v90 main_v1 main_v91 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),  -- %91
    unary main_v91 main_v92 (broadcastInDim S800000x1 ![0] bcast_S800000_S800000x1_0 : (⟨S800000, .i32⟩ : BufTy).Contents (Elt F) → (⟨S800000x1, .i32⟩ : BufTy).Contents (Elt F)),  -- %92
    binary main_v86 main_v92 main_v93 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),  -- %93
    nullary main_c_22 (constantI S_ 32 0#32),  -- %c_22
    unary main_c_22 main_v94 (broadcastInDim S800000 ![] bcast_S_S800000 : (⟨S_, .i32⟩ : BufTy).Contents (Elt F) → (⟨S800000, .i32⟩ : BufTy).Contents (Elt F)) ]  -- %94

/-- Stage A2 within the printed window `main_part2`: the statements binding %95 … %119, 29 operations. -/
abbrev opsA2_p2 : List (HloOp τ sig (Elt F)) :=
  [ binary main_v3 main_v94 main_v95 (cmpi .slt : (⟨S800000, .i32⟩ : BufTy).Contents (Elt F) → (⟨S800000, .i32⟩ : BufTy).Contents (Elt F) → (⟨S800000, .i1⟩ : BufTy).Contents (Elt F)),  -- %95
    nullary main_c_23 (constantI S_ 32 50000#32),  -- %c_23
    unary main_c_23 main_v96 (broadcastInDim S800000 ![] bcast_S_S800000 : (⟨S_, .i32⟩ : BufTy).Contents (Elt F) → (⟨S800000, .i32⟩ : BufTy).Contents (Elt F)),  -- %96
    binary main_v3 main_v96 main_v97 (addi : (⟨S800000, .i32⟩ : BufTy).Contents (Elt F) → (⟨S800000, .i32⟩ : BufTy).Contents (Elt F) → (⟨S800000, .i32⟩ : BufTy).Contents (Elt F)),  -- %97
    ternary main_v95 main_v97 main_v3 main_v98 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),  -- %98
    unary main_v98 main_v99 (broadcastInDim S800000x1 ![0] bcast_S800000_S800000x1_0 : (⟨S800000, .i32⟩ : BufTy).Contents (Elt F) → (⟨S800000x1, .i32⟩ : BufTy).Contents (Elt F)),  -- %99
    binary main_v86 main_v99 main_v100 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),  -- %100
    binary main_v93 main_v100 main_v101 (mulf : (⟨S800000, .f32⟩ : BufTy).Contents (Elt F) → (⟨S800000, .f32⟩ : BufTy).Contents (Elt F) → (⟨S800000, .f32⟩ : BufTy).Contents (Elt F)),  -- %101
    nullary main_c_24 (constantI S_ 32 0#32),  -- %c_24
    unary main_c_24 main_v102 (broadcastInDim S800000 ![] bcast_S_S800000 : (⟨S_, .i32⟩ : BufTy).Contents (Elt F) → (⟨S800000, .i32⟩ : BufTy).Contents (Elt F)),  -- %102
    binary main_v1 main_v102 main_v103 (cmpi .slt : (⟨S800000, .i32⟩ : BufTy).Contents (Elt F) → (⟨S800000, .i32⟩ : BufTy).Contents (Elt F) → (⟨S800000, .i1⟩ : BufTy).Contents (Elt F)),  -- %103
    nullary main_c_25 (constantI S_ 32 50000#32),  -- %c_25
    unary main_c_25 main_v104 (broadcastInDim S800000 ![] bcast_S_S800000 : (⟨S_, .i32⟩ : BufTy).Contents (Elt F) → (⟨S800000, .i32⟩ : BufTy).Contents (Elt F)),  -- %104
    binary main_v1 main_v104 main_v105 (addi : (⟨S800000, .i32⟩ : BufTy).Contents (Elt F) → (⟨S800000, .i32⟩ : BufTy).Contents (Elt F) → (⟨S800000, .i32⟩ : BufTy).Contents (Elt F)),  -- %105
    ternary main_v103 main_v105 main_v1 main_v106 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),  -- %106
    unary main_v106 main_v107 (broadcastInDim S800000x1 ![0] bcast_S800000_S800000x1_0 : (⟨S800000, .i32⟩ : BufTy).Contents (Elt F) → (⟨S800000x1, .i32⟩ : BufTy).Contents (Elt F)),  -- %107
    binary main_v76 main_v107 main_v108 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),  -- %108
    unary main_v101 main_v109 (broadcastInDim S800000x1 ![0] bcast_S800000_S800000x1_0 : (⟨S800000, .f32⟩ : BufTy).Contents (Elt F) → (⟨S800000x1, .f32⟩ : BufTy).Contents (Elt F)),  -- %109
    unary main_v109 main_v110 (broadcastInDim S800000x256 ![0, 1] bcast_S800000x1_S800000x256_0_1 : (⟨S800000x1, .f32⟩ : BufTy).Contents (Elt F) → (⟨S800000x256, .f32⟩ : BufTy).Contents (Elt F)),  -- %110
    binary main_v108 main_v110 main_v111 (mulf : (⟨S800000x256, .f32⟩ : BufTy).Contents (Elt F) → (⟨S800000x256, .f32⟩ : BufTy).Contents (Elt F) → (⟨S800000x256, .f32⟩ : BufTy).Contents (Elt F)),  -- %111
    nullary main_cst_26 (constant S_ .f32 0x00000000#32),  -- %cst_26
    unary main_cst_26 main_v112 (broadcastInDim S50000x256 ![] bcast_S_S50000x256 : (⟨S_, .f32⟩ : BufTy).Contents (Elt F) → (⟨S50000x256, .f32⟩ : BufTy).Contents (Elt F)),  -- %112
    unary main_v3 main_v113 (broadcastInDim S800000x1 ![0] bcast_S800000_S800000x1_0 : (⟨S800000, .i32⟩ : BufTy).Contents (Elt F) → (⟨S800000x1, .i32⟩ : BufTy).Contents (Elt F)),  -- %113
    ternary main_v112 main_v113 main_v111 main_v114 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),  -- %114
    binary main_v86 main_v86 main_v115 (mulf : (⟨S50000, .f32⟩ : BufTy).Contents (Elt F) → (⟨S50000, .f32⟩ : BufTy).Contents (Elt F) → (⟨S50000, .f32⟩ : BufTy).Contents (Elt F)),  -- %115
    unary main_v115 main_v116 (broadcastInDim S50000x1 ![0] bcast_S50000_S50000x1_0 : (⟨S50000, .f32⟩ : BufTy).Contents (Elt F) → (⟨S50000x1, .f32⟩ : BufTy).Contents (Elt F)),  -- %116
    unary main_v116 main_v117 (broadcastInDim S50000x256 ![0, 1] bcast_S50000x1_S50000x256_0_1 : (⟨S50000x1, .f32⟩ : BufTy).Contents (Elt F) → (⟨S50000x256, .f32⟩ : BufTy).Contents (Elt F)),  -- %117
    binary main_v76 main_v117 main_v118 (mulf : (⟨S50000x256, .f32⟩ : BufTy).Contents (Elt F) → (⟨S50000x256, .f32⟩ : BufTy).Contents (Elt F) → (⟨S50000x256, .f32⟩ : BufTy).Contents (Elt F)),  -- %118
    binary main_v114 main_v118 main_v119 (addf : (⟨S50000x256, .f32⟩ : BufTy).Contents (Elt F) → (⟨S50000x256, .f32⟩ : BufTy).Contents (Elt F) → (⟨S50000x256, .f32⟩ : BufTy).Contents (Elt F)) ]  -- %119

/-- Stage N2 within the printed window `main_part2`: the statements binding %120 … %145, 31 operations. -/
abbrev opsN2_p2 : List (HloOp τ sig (Elt F)) :=
  [ unary main_arg7 main_v120 (broadcastInDim S1x256 ![1] bcast_S256_S1x256_1 : (⟨S256, .f32⟩ : BufTy).Contents (Elt F) → (⟨S1x256, .f32⟩ : BufTy).Contents (Elt F)),  -- %120
    unary main_v120 main_v121 (broadcastInDim S50000x256 ![0, 1] bcast_S1x256_S50000x256_0_1 : (⟨S1x256, .f32⟩ : BufTy).Contents (Elt F) → (⟨S50000x256, .f32⟩ : BufTy).Contents (Elt F)),  -- %121
    binary main_v119 main_v121 main_v122 (addf : (⟨S50000x256, .f32⟩ : BufTy).Contents (Elt F) → (⟨S50000x256, .f32⟩ : BufTy).Contents (Elt F) → (⟨S50000x256, .f32⟩ : BufTy).Contents (Elt F)),  -- %122
    nullary main_cst_27 (constant S_ .f32 0x00000000#32),  -- %cst_27
    binary main_v122 main_cst_27 main_v123 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),  -- %123
    unary main_v123 main_v124 (broadcastInDim S50000x1 ![0] bcast_S50000_S50000x1_0 : (⟨S50000, .f32⟩ : BufTy).Contents (Elt F) → (⟨S50000x1, .f32⟩ : BufTy).Contents (Elt F)),  -- %124
    nullary main_cst_28 (constant S_ .f32 0x43800000#32),  -- %cst_28
    unary main_cst_28 main_v125 (broadcastInDim S50000x1 ![] bcast_S_S50000x1 : (⟨S_, .f32⟩ : BufTy).Contents (Elt F) → (⟨S50000x1, .f32⟩ : BufTy).Contents (Elt F)),  -- %125
    binary main_v124 main_v125 main_v126 (Host.divf : (⟨S50000x1, .f32⟩ : BufTy).Contents (Elt F) → (⟨S50000x1, .f32⟩ : BufTy).Contents (Elt F) → (⟨S50000x1, .f32⟩ : BufTy).Contents (Elt F)),  -- %126
    unary main_v126 main_v127 (broadcastInDim S50000x256 ![0, 1] bcast_S50000x1_S50000x256_0_1 : (⟨S50000x1, .f32⟩ : BufTy).Contents (Elt F) → (⟨S50000x256, .f32⟩ : BufTy).Contents (Elt F)),  -- %127
    binary main_v122 main_v127 main_v128 (subf : (⟨S50000x256, .f32⟩ : BufTy).Contents (Elt F) → (⟨S50000x256, .f32⟩ : BufTy).Contents (Elt F) → (⟨S50000x256, .f32⟩ : BufTy).Contents (Elt F)),  -- %128
    binary main_v128 main_v128 main_v129 (mulf : (⟨S50000x256, .f32⟩ : BufTy).Contents (Elt F) → (⟨S50000x256, .f32⟩ : BufTy).Contents (Elt F) → (⟨S50000x256, .f32⟩ : BufTy).Contents (Elt F)),  -- %129
    nullary main_cst_29 (constant S_ .f32 0x00000000#32),  -- %cst_29
    binary main_v129 main_cst_29 main_v130 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),  -- %130
    unary main_v130 main_v131 (broadcastInDim S50000x1 ![0] bcast_S50000_S50000x1_0 : (⟨S50000, .f32⟩ : BufTy).Contents (Elt F) → (⟨S50000x1, .f32⟩ : BufTy).Contents (Elt F)),  -- %131
    nullary main_cst_30 (constant S_ .f32 0x43800000#32),  -- %cst_30
    unary main_cst_30 main_v132 (broadcastInDim S50000x1 ![] bcast_S_S50000x1 : (⟨S_, .f32⟩ : BufTy).Contents (Elt F) → (⟨S50000x1, .f32⟩ : BufTy).Contents (Elt F)),  -- %132
    binary main_v131 main_v132 main_v133 (Host.divf : (⟨S50000x1, .f32⟩ : BufTy).Contents (Elt F) → (⟨S50000x1, .f32⟩ : BufTy).Contents (Elt F) → (⟨S50000x1, .f32⟩ : BufTy).Contents (Elt F)),  -- %133
    unary main_v126 main_v134 (broadcastInDim S50000x256 ![0, 1] bcast_S50000x1_S50000x256_0_1 : (⟨S50000x1, .f32⟩ : BufTy).Contents (Elt F) → (⟨S50000x256, .f32⟩ : BufTy).Contents (Elt F)),  -- %134
    binary main_v122 main_v134 main_v135 (subf : (⟨S50000x256, .f32⟩ : BufTy).Contents (Elt F) → (⟨S50000x256, .f32⟩ : BufTy).Contents (Elt F) → (⟨S50000x256, .f32⟩ : BufTy).Contents (Elt F)),  -- %135
    nullary main_cst_31 (constant S_ .f32 0x3727C5AC#32),  -- %cst_31
    unary main_cst_31 main_v136 (broadcastInDim S50000x1 ![] bcast_S_S50000x1 : (⟨S_, .f32⟩ : BufTy).Contents (Elt F) → (⟨S50000x1, .f32⟩ : BufTy).Contents (Elt F)),  -- %136
    binary main_v133 main_v136 main_v137 (addf : (⟨S50000x1, .f32⟩ : BufTy).Contents (Elt F) → (⟨S50000x1, .f32⟩ : BufTy).Contents (Elt F) → (⟨S50000x1, .f32⟩ : BufTy).Contents (Elt F)),  -- %137
    unary main_v137 main_v138 (Host.rsqrt : (⟨S50000x1, .f32⟩ : BufTy).Contents (Elt F) → (⟨S50000x1, .f32⟩ : BufTy).Contents (Elt F)),  -- %138
    unary main_v138 main_v139 (broadcastInDim S50000x256 ![0, 1] bcast_S50000x1_S50000x256_0_1 : (⟨S50000x1, .f32⟩ : BufTy).Contents (Elt F) → (⟨S50000x256, .f32⟩ : BufTy).Contents (Elt F)),  -- %139
    binary main_v135 main_v139 main_v140 (mulf : (⟨S50000x256, .f32⟩ : BufTy).Contents (Elt F) → (⟨S50000x256, .f32⟩ : BufTy).Contents (Elt F) → (⟨S50000x256, .f32⟩ : BufTy).Contents (Elt F)),  -- %140
    unary main_arg8 main_v141 (broadcastInDim S1x256 ![1] bcast_S256_S1x256_1 : (⟨S256, .f32⟩ : BufTy).Contents (Elt F) → (⟨S1x256, .f32⟩ : BufTy).Contents (Elt F)),  -- %141
    unary main_v141 main_v142 (broadcastInDim S50000x256 ![0, 1] bcast_S1x256_S50000x256_0_1 : (⟨S1x256, .f32⟩ : BufTy).Contents (Elt F) → (⟨S50000x256, .f32⟩ : BufTy).Contents (Elt F)),  -- %142
    binary main_v140 main_v142 main_v143 (mulf : (⟨S50000x256, .f32⟩ : BufTy).Contents (Elt F) → (⟨S50000x256, .f32⟩ : BufTy).Contents (Elt F) → (⟨S50000x256, .f32⟩ : BufTy).Contents (Elt F)),  -- %143
    unary main_arg9 main_v144 (broadcastInDim S1x256 ![1] bcast_S256_S1x256_1 : (⟨S256, .f32⟩ : BufTy).Contents (Elt F) → (⟨S1x256, .f32⟩ : BufTy).Contents (Elt F)),  -- %144
    unary main_v144 main_v145 (broadcastInDim S50000x256 ![0, 1] bcast_S1x256_S50000x256_0_1 : (⟨S1x256, .f32⟩ : BufTy).Contents (Elt F) → (⟨S50000x256, .f32⟩ : BufTy).Contents (Elt F)) ]  -- %145

/-- Stage N2 within the printed window `main_part3`: the statements binding %146 … %147, 16 operations. -/
abbrev opsN2_p3 : List (HloOp τ sig (Elt F)) :=
  [ binary main_v143 main_v145 main_v146 (addf : (⟨S50000x256, .f32⟩ : BufTy).Contents (Elt F) → (⟨S50000x256, .f32⟩ : BufTy).Contents (Elt F) → (⟨S50000x256, .f32⟩ : BufTy).Contents (Elt F)),  -- %146
    TRef.nullary main_call3.cst (constant S_ .f32 0x00000000#32),  -- %147: @elu_2's %cst
    TRef.unary main_call3.cst main_call3.v0 (broadcastInDim S50000x256 ![] bcast_S_S50000x256),  -- %147: @elu_2's %0
    TRef.binary (.of main_v146 : TRef sig ⟨S50000x256, .f32⟩) main_call3.v0 main_call3.v1 (cmpf .ogt),  -- %147: @elu_2's %1
    TRef.nullary main_call3.cst_0 (constant S_ .f32 0x00000000#32),  -- %147: @elu_2's %cst_0
    TRef.unary main_call3.cst_0 main_call3.v2 (broadcastInDim S50000x256 ![] bcast_S_S50000x256),  -- %147: @elu_2's %2
    TRef.binary (.of main_v146 : TRef sig ⟨S50000x256, .f32⟩) main_call3.v2 main_call3.v3 (cmpf .ogt),  -- %147: @elu_2's %3
    TRef.nullary main_call3.cst_1 (constant S_ .f32 0x00000000#32),  -- %147: @elu_2's %cst_1
    TRef.unary main_call3.cst_1 main_call3.call0.v0 id,  -- %147: @_where_3's %0
    TRef.unary main_call3.call0.v0 main_call3.call0.v1 (broadcastInDim S50000x256 ![] bcast_S_S50000x256),  -- %147: @_where_3's %1
    TRef.ternary main_call3.v3 main_call3.call0.v1 (.of main_v146 : TRef sig ⟨S50000x256, .f32⟩) main_call3.call0.v2 select,  -- %147: @_where_3's %2
    TRef.unary main_call3.call0.v2 main_call3.v5 Host.expm1,  -- %147: @elu_2's %5
    TRef.nullary main_call3.cst_2 (constant S_ .f32 0x3F800000#32),  -- %147: @elu_2's %cst_2
    TRef.unary main_call3.cst_2 main_call3.v6 (broadcastInDim S50000x256 ![] bcast_S_S50000x256),  -- %147: @elu_2's %6
    TRef.binary main_call3.v6 main_call3.v5 main_call3.v7 mulf,  -- %147: @elu_2's %7
    TRef.ternary main_call3.v1 (.of main_v146 : TRef sig ⟨S50000x256, .f32⟩) main_call3.v7 main_call3.call1.v0 select ]  -- %147: @_where_4's %0

/-- Stage A3 within the printed window `main_part3`: the statements binding %148 … %191, 58 operations. -/
abbrev opsA3_p3 : List (HloOp τ sig (Elt F)) :=
  [ binary main_v147 main_arg10 main_v148 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),  -- %148
    nullary main_cst_32 (constant S_ .f32 0x3F800000#32),  -- %cst_32
    unary main_cst_32 main_v149 (broadcastInDim S800000 ![] bcast_S_S800000 : (⟨S_, .f32⟩ : BufTy).Contents (Elt F) → (⟨S800000, .f32⟩ : BufTy).Contents (Elt F)),  -- %149
    nullary main_cst_33 (constant S_ .f32 0x00000000#32),  -- %cst_33
    unary main_cst_33 main_v150 (broadcastInDim S50000 ![] bcast_S_S50000 : (⟨S_, .f32⟩ : BufTy).Contents (Elt F) → (⟨S50000, .f32⟩ : BufTy).Contents (Elt F)),  -- %150
    unary main_v3 main_v151 (broadcastInDim S800000x1 ![0] bcast_S800000_S800000x1_0 : (⟨S800000, .i32⟩ : BufTy).Contents (Elt F) → (⟨S800000x1, .i32⟩ : BufTy).Contents (Elt F)),  -- %151
    ternary main_v150 main_v151 main_v149 main_v152 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),  -- %152
    nullary main_cst_34 (constant S_ .f32 0x3F800000#32),  -- %cst_34
    unary main_cst_34 main_v153 (broadcastInDim S50000 ![] bcast_S_S50000 : (⟨S_, .f32⟩ : BufTy).Contents (Elt F) → (⟨S50000, .f32⟩ : BufTy).Contents (Elt F)),  -- %153
    binary main_v152 main_v153 main_v154 (addf : (⟨S50000, .f32⟩ : BufTy).Contents (Elt F) → (⟨S50000, .f32⟩ : BufTy).Contents (Elt F) → (⟨S50000, .f32⟩ : BufTy).Contents (Elt F)),  -- %154
    nullary main_cst_35 (constant S_ .f32 0x00000000#32),  -- %cst_35
    unary main_cst_35 main_v155 (broadcastInDim S50000 ![] bcast_S_S50000 : (⟨S_, .f32⟩ : BufTy).Contents (Elt F) → (⟨S50000, .f32⟩ : BufTy).Contents (Elt F)),  -- %155
    binary main_v154 main_v155 main_v156 (cmpf .ogt : (⟨S50000, .f32⟩ : BufTy).Contents (Elt F) → (⟨S50000, .f32⟩ : BufTy).Contents (Elt F) → (⟨S50000, .i1⟩ : BufTy).Contents (Elt F)),  -- %156
    unary main_v154 main_v157 (Host.rsqrt : (⟨S50000, .f32⟩ : BufTy).Contents (Elt F) → (⟨S50000, .f32⟩ : BufTy).Contents (Elt F)),  -- %157
    nullary main_cst_36 (constant S_ .f32 0x00000000#32),  -- %cst_36
    TRef.unary (.of main_cst_36 : TRef sig ⟨S_, .f32⟩) main_call4.v0 id,  -- %158: @_where's %0
    TRef.unary main_call4.v0 main_call4.v1 (broadcastInDim S50000 ![] bcast_S_S50000),  -- %158: @_where's %1
    TRef.ternary (.of main_v156 : TRef sig ⟨S50000, .i1⟩) (.of main_v157 : TRef sig ⟨S50000, .f32⟩) main_call4.v1 main_call4.v2 select,  -- %158: @_where's %2
    nullary main_c_37 (constantI S_ 32 0#32),  -- %c_37
    unary main_c_37 main_v159 (broadcastInDim S800000 ![] bcast_S_S800000 : (⟨S_, .i32⟩ : BufTy).Contents (Elt F) → (⟨S800000, .i32⟩ : BufTy).Contents (Elt F)),  -- %159
    binary main_v1 main_v159 main_v160 (cmpi .slt : (⟨S800000, .i32⟩ : BufTy).Contents (Elt F) → (⟨S800000, .i32⟩ : BufTy).Contents (Elt F) → (⟨S800000, .i1⟩ : BufTy).Contents (Elt F)),  -- %160
    nullary main_c_38 (constantI S_ 32 50000#32),  -- %c_38
    unary main_c_38 main_v161 (broadcastInDim S800000 ![] bcast_S_S800000 : (⟨S_, .i32⟩ : BufTy).Contents (Elt F) → (⟨S800000, .i32⟩ : BufTy).Contents (Elt F)),  -- %161
    binary main_v1 main_v161 main_v162 (addi : (⟨S800000, .i32⟩ : BufTy).Contents (Elt F) → (⟨S800000, .i32⟩ : BufTy).Contents (Elt F) → (⟨S800000, .i32⟩ : BufTy).Contents (Elt F)),  -- %162
    ternary main_v160 main_v162 main_v1 main_v163 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),  -- %163
    unary main_v163 main_v164 (broadcastInDim S800000x1 ![0] bcast_S800000_S800000x1_0 : (⟨S800000, .i32⟩ : BufTy).Contents (Elt F) → (⟨S800000x1, .i32⟩ : BufTy).Contents (Elt F)),  -- %164
    binary main_v158 main_v164 main_v165 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),  -- %165
    nullary main_c_39 (constantI S_ 32 0#32),  -- %c_39
    unary main_c_39 main_v166 (broadcastInDim S800000 ![] bcast_S_S800000 : (⟨S_, .i32⟩ : BufTy).Contents (Elt F) → (⟨S800000, .i32⟩ : BufTy).Contents (Elt F)),  -- %166
    binary main_v3 main_v166 main_v167 (cmpi .slt : (⟨S800000, .i32⟩ : BufTy).Contents (Elt F) → (⟨S800000, .i32⟩ : BufTy).Contents (Elt F) → (⟨S800000, .i1⟩ : BufTy).Contents (Elt F)),  -- %167
    nullary main_c_40 (constantI S_ 32 50000#32),  -- %c_40
    unary main_c_40 main_v168 (broadcastInDim S800000 ![] bcast_S_S800000 : (⟨S_, .i32⟩ : BufTy).Contents (Elt F) → (⟨S800000, .i32⟩ : BufTy).Contents (Elt F)),  -- %168
    binary main_v3 main_v168 main_v169 (addi : (⟨S800000, .i32⟩ : BufTy).Contents (Elt F) → (⟨S800000, .i32⟩ : BufTy).Contents (Elt F) → (⟨S800000, .i32⟩ : BufTy).Contents (Elt F)),  -- %169
    ternary main_v167 main_v169 main_v3 main_v170 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),  -- %170
    unary main_v170 main_v171 (broadcastInDim S800000x1 ![0] bcast_S800000_S800000x1_0 : (⟨S800000, .i32⟩ : BufTy).Contents (Elt F) → (⟨S800000x1, .i32⟩ : BufTy).Contents (Elt F)),  -- %171
    binary main_v158 main_v171 main_v172 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),  -- %172
    binary main_v165 main_v172 main_v173 (mulf : (⟨S800000, .f32⟩ : BufTy).Contents (Elt F) → (⟨S800000, .f32⟩ : BufTy).Contents (Elt F) → (⟨S800000, .f32⟩ : BufTy).Contents (Elt F)),  -- %173
    nullary main_c_41 (constantI S_ 32 0#32),  -- %c_41
    unary main_c_41 main_v174 (broadcastInDim S800000 ![] bcast_S_S800000 : (⟨S_, .i32⟩ : BufTy).Contents (Elt F) → (⟨S800000, .i32⟩ : BufTy).Contents (Elt F)),  -- %174
    binary main_v1 main_v174 main_v175 (cmpi .slt : (⟨S800000, .i32⟩ : BufTy).Contents (Elt F) → (⟨S800000, .i32⟩ : BufTy).Contents (Elt F) → (⟨S800000, .i1⟩ : BufTy).Contents (Elt F)),  -- %175
    nullary main_c_42 (constantI S_ 32 50000#32),  -- %c_42
    unary main_c_42 main_v176 (broadcastInDim S800000 ![] bcast_S_S800000 : (⟨S_, .i32⟩ : BufTy).Contents (Elt F) → (⟨S800000, .i32⟩ : BufTy).Contents (Elt F)),  -- %176
    binary main_v1 main_v176 main_v177 (addi : (⟨S800000, .i32⟩ : BufTy).Contents (Elt F) → (⟨S800000, .i32⟩ : BufTy).Contents (Elt F) → (⟨S800000, .i32⟩ : BufTy).Contents (Elt F)),  -- %177
    ternary main_v175 main_v177 main_v1 main_v178 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),  -- %178
    unary main_v178 main_v179 (broadcastInDim S800000x1 ![0] bcast_S800000_S800000x1_0 : (⟨S800000, .i32⟩ : BufTy).Contents (Elt F) → (⟨S800000x1, .i32⟩ : BufTy).Contents (Elt F)),  -- %179
    binary main_v148 main_v179 main_v180 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),  -- %180
    unary main_v173 main_v181 (broadcastInDim S800000x1 ![0] bcast_S800000_S800000x1_0 : (⟨S800000, .f32⟩ : BufTy).Contents (Elt F) → (⟨S800000x1, .f32⟩ : BufTy).Contents (Elt F)),  -- %181
    unary main_v181 main_v182 (broadcastInDim S800000x128 ![0, 1] bcast_S800000x1_S800000x128_0_1 : (⟨S800000x1, .f32⟩ : BufTy).Contents (Elt F) → (⟨S800000x128, .f32⟩ : BufTy).Contents (Elt F)),  -- %182
    binary main_v180 main_v182 main_v183 (mulf : (⟨S800000x128, .f32⟩ : BufTy).Contents (Elt F) → (⟨S800000x128, .f32⟩ : BufTy).Contents (Elt F) → (⟨S800000x128, .f32⟩ : BufTy).Contents (Elt F)),  -- %183
    nullary main_cst_43 (constant S_ .f32 0x00000000#32),  -- %cst_43
    unary main_cst_43 main_v184 (broadcastInDim S50000x128 ![] bcast_S_S50000x128 : (⟨S_, .f32⟩ : BufTy).Contents (Elt F) → (⟨S50000x128, .f32⟩ : BufTy).Contents (Elt F)),  -- %184
    unary main_v3 main_v185 (broadcastInDim S800000x1 ![0] bcast_S800000_S800000x1_0 : (⟨S800000, .i32⟩ : BufTy).Contents (Elt F) → (⟨S800000x1, .i32⟩ : BufTy).Contents (Elt F)),  -- %185
    ternary main_v184 main_v185 main_v183 main_v186 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),  -- %186
    binary main_v158 main_v158 main_v187 (mulf : (⟨S50000, .f32⟩ : BufTy).Contents (Elt F) → (⟨S50000, .f32⟩ : BufTy).Contents (Elt F) → (⟨S50000, .f32⟩ : BufTy).Contents (Elt F)),  -- %187
    unary main_v187 main_v188 (broadcastInDim S50000x1 ![0] bcast_S50000_S50000x1_0 : (⟨S50000, .f32⟩ : BufTy).Contents (Elt F) → (⟨S50000x1, .f32⟩ : BufTy).Contents (Elt F)),  -- %188
    unary main_v188 main_v189 (broadcastInDim S50000x128 ![0, 1] bcast_S50000x1_S50000x128_0_1 : (⟨S50000x1, .f32⟩ : BufTy).Contents (Elt F) → (⟨S50000x128, .f32⟩ : BufTy).Contents (Elt F)),  -- %189
    binary main_v148 main_v189 main_v190 (mulf : (⟨S50000x128, .f32⟩ : BufTy).Contents (Elt F) → (⟨S50000x128, .f32⟩ : BufTy).Contents (Elt F) → (⟨S50000x128, .f32⟩ : BufTy).Contents (Elt F)),  -- %190
    binary main_v186 main_v190 main_v191 (addf : (⟨S50000x128, .f32⟩ : BufTy).Contents (Elt F) → (⟨S50000x128, .f32⟩ : BufTy).Contents (Elt F) → (⟨S50000x128, .f32⟩ : BufTy).Contents (Elt F)) ]  -- %191

/-- Stage N3 within the printed window `main_part3`: the statements binding %192 … %193, 2 operations. -/
abbrev opsN3_p3 : List (HloOp τ sig (Elt F)) :=
  [ unary main_arg11 main_v192 (broadcastInDim S1x128 ![1] bcast_S128_S1x128_1 : (⟨S128, .f32⟩ : BufTy).Contents (Elt F) → (⟨S1x128, .f32⟩ : BufTy).Contents (Elt F)),  -- %192
    unary main_v192 main_v193 (broadcastInDim S50000x128 ![0, 1] bcast_S1x128_S50000x128_0_1 : (⟨S1x128, .f32⟩ : BufTy).Contents (Elt F) → (⟨S50000x128, .f32⟩ : BufTy).Contents (Elt F)) ]  -- %193

/-- Stage N3 within the printed window `main_part4`: the statements binding %194 … %219, 45 operations. -/
abbrev opsN3_p4 : List (HloOp τ sig (Elt F)) :=
  [ binary main_v191 main_v193 main_v194 (addf : (⟨S50000x128, .f32⟩ : BufTy).Contents (Elt F) → (⟨S50000x128, .f32⟩ : BufTy).Contents (Elt F) → (⟨S50000x128, .f32⟩ : BufTy).Contents (Elt F)),  -- %194
    nullary main_cst_44 (constant S_ .f32 0x00000000#32),  -- %cst_44
    binary main_v194 main_cst_44 main_v195 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),  -- %195
    unary main_v195 main_v196 (broadcastInDim S50000x1 ![0] bcast_S50000_S50000x1_0 : (⟨S50000, .f32⟩ : BufTy).Contents (Elt F) → (⟨S50000x1, .f32⟩ : BufTy).Contents (Elt F)),  -- %196
    nullary main_cst_45 (constant S_ .f32 0x43000000#32),  -- %cst_45
    unary main_cst_45 main_v197 (broadcastInDim S50000x1 ![] bcast_S_S50000x1 : (⟨S_, .f32⟩ : BufTy).Contents (Elt F) → (⟨S50000x1, .f32⟩ : BufTy).Contents (Elt F)),  -- %197
    binary main_v196 main_v197 main_v198 (Host.divf : (⟨S50000x1, .f32⟩ : BufTy).Contents (Elt F) → (⟨S50000x1, .f32⟩ : BufTy).Contents (Elt F) → (⟨S50000x1, .f32⟩ : BufTy).Contents (Elt F)),  -- %198
    unary main_v198 main_v199 (broadcastInDim S50000x128 ![0, 1] bcast_S50000x1_S50000x128_0_1 : (⟨S50000x1, .f32⟩ : BufTy).Contents (Elt F) → (⟨S50000x128, .f32⟩ : BufTy).Contents (Elt F)),  -- %199
    binary main_v194 main_v199 main_v200 (subf : (⟨S50000x128, .f32⟩ : BufTy).Contents (Elt F) → (⟨S50000x128, .f32⟩ : BufTy).Contents (Elt F) → (⟨S50000x128, .f32⟩ : BufTy).Contents (Elt F)),  -- %200
    binary main_v200 main_v200 main_v201 (mulf : (⟨S50000x128, .f32⟩ : BufTy).Contents (Elt F) → (⟨S50000x128, .f32⟩ : BufTy).Contents (Elt F) → (⟨S50000x128, .f32⟩ : BufTy).Contents (Elt F)),  -- %201
    nullary main_cst_46 (constant S_ .f32 0x00000000#32),  -- %cst_46
    binary main_v201 main_cst_46 main_v202 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),  -- %202
    unary main_v202 main_v203 (broadcastInDim S50000x1 ![0] bcast_S50000_S50000x1_0 : (⟨S50000, .f32⟩ : BufTy).Contents (Elt F) → (⟨S50000x1, .f32⟩ : BufTy).Contents (Elt F)),  -- %203
    nullary main_cst_47 (constant S_ .f32 0x43000000#32),  -- %cst_47
    unary main_cst_47 main_v204 (broadcastInDim S50000x1 ![] bcast_S_S50000x1 : (⟨S_, .f32⟩ : BufTy).Contents (Elt F) → (⟨S50000x1, .f32⟩ : BufTy).Contents (Elt F)),  -- %204
    binary main_v203 main_v204 main_v205 (Host.divf : (⟨S50000x1, .f32⟩ : BufTy).Contents (Elt F) → (⟨S50000x1, .f32⟩ : BufTy).Contents (Elt F) → (⟨S50000x1, .f32⟩ : BufTy).Contents (Elt F)),  -- %205
    unary main_v198 main_v206 (broadcastInDim S50000x128 ![0, 1] bcast_S50000x1_S50000x128_0_1 : (⟨S50000x1, .f32⟩ : BufTy).Contents (Elt F) → (⟨S50000x128, .f32⟩ : BufTy).Contents (Elt F)),  -- %206
    binary main_v194 main_v206 main_v207 (subf : (⟨S50000x128, .f32⟩ : BufTy).Contents (Elt F) → (⟨S50000x128, .f32⟩ : BufTy).Contents (Elt F) → (⟨S50000x128, .f32⟩ : BufTy).Contents (Elt F)),  -- %207
    nullary main_cst_48 (constant S_ .f32 0x3727C5AC#32),  -- %cst_48
    unary main_cst_48 main_v208 (broadcastInDim S50000x1 ![] bcast_S_S50000x1 : (⟨S_, .f32⟩ : BufTy).Contents (Elt F) → (⟨S50000x1, .f32⟩ : BufTy).Contents (Elt F)),  -- %208
    binary main_v205 main_v208 main_v209 (addf : (⟨S50000x1, .f32⟩ : BufTy).Contents (Elt F) → (⟨S50000x1, .f32⟩ : BufTy).Contents (Elt F) → (⟨S50000x1, .f32⟩ : BufTy).Contents (Elt F)),  -- %209
    unary main_v209 main_v210 (Host.rsqrt : (⟨S50000x1, .f32⟩ : BufTy).Contents (Elt F) → (⟨S50000x1, .f32⟩ : BufTy).Contents (Elt F)),  -- %210
    unary main_v210 main_v211 (broadcastInDim S50000x128 ![0, 1] bcast_S50000x1_S50000x128_0_1 : (⟨S50000x1, .f32⟩ : BufTy).Contents (Elt F) → (⟨S50000x128, .f32⟩ : BufTy).Contents (Elt F)),  -- %211
    binary main_v207 main_v211 main_v212 (mulf : (⟨S50000x128, .f32⟩ : BufTy).Contents (Elt F) → (⟨S50000x128, .f32⟩ : BufTy).Contents (Elt F) → (⟨S50000x128, .f32⟩ : BufTy).Contents (Elt F)),  -- %212
    unary main_arg12 main_v213 (broadcastInDim S1x128 ![1] bcast_S128_S1x128_1 : (⟨S128, .f32⟩ : BufTy).Contents (Elt F) → (⟨S1x128, .f32⟩ : BufTy).Contents (Elt F)),  -- %213
    unary main_v213 main_v214 (broadcastInDim S50000x128 ![0, 1] bcast_S1x128_S50000x128_0_1 : (⟨S1x128, .f32⟩ : BufTy).Contents (Elt F) → (⟨S50000x128, .f32⟩ : BufTy).Contents (Elt F)),  -- %214
    binary main_v212 main_v214 main_v215 (mulf : (⟨S50000x128, .f32⟩ : BufTy).Contents (Elt F) → (⟨S50000x128, .f32⟩ : BufTy).Contents (Elt F) → (⟨S50000x128, .f32⟩ : BufTy).Contents (Elt F)),  -- %215
    unary main_arg13 main_v216 (broadcastInDim S1x128 ![1] bcast_S128_S1x128_1 : (⟨S128, .f32⟩ : BufTy).Contents (Elt F) → (⟨S1x128, .f32⟩ : BufTy).Contents (Elt F)),  -- %216
    unary main_v216 main_v217 (broadcastInDim S50000x128 ![0, 1] bcast_S1x128_S50000x128_0_1 : (⟨S1x128, .f32⟩ : BufTy).Contents (Elt F) → (⟨S50000x128, .f32⟩ : BufTy).Contents (Elt F)),  -- %217
    binary main_v215 main_v217 main_v218 (addf : (⟨S50000x128, .f32⟩ : BufTy).Contents (Elt F) → (⟨S50000x128, .f32⟩ : BufTy).Contents (Elt F) → (⟨S50000x128, .f32⟩ : BufTy).Contents (Elt F)),  -- %218
    TRef.nullary main_call5.cst (constant S_ .f32 0x00000000#32),  -- %219: @elu's %cst
    TRef.unary main_call5.cst main_call5.v0 (broadcastInDim S50000x128 ![] bcast_S_S50000x128),  -- %219: @elu's %0
    TRef.binary (.of main_v218 : TRef sig ⟨S50000x128, .f32⟩) main_call5.v0 main_call5.v1 (cmpf .ogt),  -- %219: @elu's %1
    TRef.nullary main_call5.cst_0 (constant S_ .f32 0x00000000#32),  -- %219: @elu's %cst_0
    TRef.unary main_call5.cst_0 main_call5.v2 (broadcastInDim S50000x128 ![] bcast_S_S50000x128),  -- %219: @elu's %2
    TRef.binary (.of main_v218 : TRef sig ⟨S50000x128, .f32⟩) main_call5.v2 main_call5.v3 (cmpf .ogt),  -- %219: @elu's %3
    TRef.nullary main_call5.cst_1 (constant S_ .f32 0x00000000#32),  -- %219: @elu's %cst_1
    TRef.unary main_call5.cst_1 main_call5.call0.v0 id,  -- %219: @_where_0's %0
    TRef.unary main_call5.call0.v0 main_call5.call0.v1 (broadcastInDim S50000x128 ![] bcast_S_S50000x128),  -- %219: @_where_0's %1
    TRef.ternary main_call5.v3 main_call5.call0.v1 (.of main_v218 : TRef sig ⟨S50000x128, .f32⟩) main_call5.call0.v2 select,  -- %219: @_where_0's %2
    TRef.unary main_call5.call0.v2 main_call5.v5 Host.expm1,  -- %219: @elu's %5
    TRef.nullary main_call5.cst_2 (constant S_ .f32 0x3F800000#32),  -- %219: @elu's %cst_2
    TRef.unary main_call5.cst_2 main_call5.v6 (broadcastInDim S50000x128 ![] bcast_S_S50000x128),  -- %219: @elu's %6
    TRef.binary main_call5.v6 main_call5.v5 main_call5.v7 mulf,  -- %219: @elu's %7
    TRef.ternary main_call5.v1 (.of main_v218 : TRef sig ⟨S50000x128, .f32⟩) main_call5.v7 main_call5.call1.v0 select ]  -- %219: @_where_1's %0

/-- Stage H within the printed window `main_part4`: the statements binding %220 … %243, 29 operations. -/
abbrev opsH_p4 : List (HloOp τ sig (Elt F)) :=
  [ binary main_v219 main_arg14 main_v220 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),  -- %220
    unary main_arg15 main_v221 (broadcastInDim S1x64 ![1] bcast_S64_S1x64_1 : (⟨S64, .f32⟩ : BufTy).Contents (Elt F) → (⟨S1x64, .f32⟩ : BufTy).Contents (Elt F)),  -- %221
    unary main_v221 main_v222 (broadcastInDim S50000x64 ![0, 1] bcast_S1x64_S50000x64_0_1 : (⟨S1x64, .f32⟩ : BufTy).Contents (Elt F) → (⟨S50000x64, .f32⟩ : BufTy).Contents (Elt F)),  -- %222
    binary main_v220 main_v222 main_v223 (addf : (⟨S50000x64, .f32⟩ : BufTy).Contents (Elt F) → (⟨S50000x64, .f32⟩ : BufTy).Contents (Elt F) → (⟨S50000x64, .f32⟩ : BufTy).Contents (Elt F)),  -- %223
    nullary main_cst_49 (constant S_ .f32 0x00000000#32),  -- %cst_49
    binary main_v223 main_cst_49 main_v224 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),  -- %224
    unary main_v224 main_v225 (broadcastInDim S50000x1 ![0] bcast_S50000_S50000x1_0 : (⟨S50000, .f32⟩ : BufTy).Contents (Elt F) → (⟨S50000x1, .f32⟩ : BufTy).Contents (Elt F)),  -- %225
    nullary main_cst_50 (constant S_ .f32 0x42800000#32),  -- %cst_50
    unary main_cst_50 main_v226 (broadcastInDim S50000x1 ![] bcast_S_S50000x1 : (⟨S_, .f32⟩ : BufTy).Contents (Elt F) → (⟨S50000x1, .f32⟩ : BufTy).Contents (Elt F)),  -- %226
    binary main_v225 main_v226 main_v227 (Host.divf : (⟨S50000x1, .f32⟩ : BufTy).Contents (Elt F) → (⟨S50000x1, .f32⟩ : BufTy).Contents (Elt F) → (⟨S50000x1, .f32⟩ : BufTy).Contents (Elt F)),  -- %227
    unary main_v227 main_v228 (broadcastInDim S50000x64 ![0, 1] bcast_S50000x1_S50000x64_0_1 : (⟨S50000x1, .f32⟩ : BufTy).Contents (Elt F) → (⟨S50000x64, .f32⟩ : BufTy).Contents (Elt F)),  -- %228
    binary main_v223 main_v228 main_v229 (subf : (⟨S50000x64, .f32⟩ : BufTy).Contents (Elt F) → (⟨S50000x64, .f32⟩ : BufTy).Contents (Elt F) → (⟨S50000x64, .f32⟩ : BufTy).Contents (Elt F)),  -- %229
    binary main_v229 main_v229 main_v230 (mulf : (⟨S50000x64, .f32⟩ : BufTy).Contents (Elt F) → (⟨S50000x64, .f32⟩ : BufTy).Contents (Elt F) → (⟨S50000x64, .f32⟩ : BufTy).Contents (Elt F)),  -- %230
    nullary main_cst_51 (constant S_ .f32 0x00000000#32),  -- %cst_51
    binary main_v230 main_cst_51 main_v231 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),  -- %231
    unary main_v231 main_v232 (broadcastInDim S50000x1 ![0] bcast_S50000_S50000x1_0 : (⟨S50000, .f32⟩ : BufTy).Contents (Elt F) → (⟨S50000x1, .f32⟩ : BufTy).Contents (Elt F)),  -- %232
    nullary main_cst_52 (constant S_ .f32 0x42800000#32),  -- %cst_52
    unary main_cst_52 main_v233 (broadcastInDim S50000x1 ![] bcast_S_S50000x1 : (⟨S_, .f32⟩ : BufTy).Contents (Elt F) → (⟨S50000x1, .f32⟩ : BufTy).Contents (Elt F)),  -- %233
    binary main_v232 main_v233 main_v234 (Host.divf : (⟨S50000x1, .f32⟩ : BufTy).Contents (Elt F) → (⟨S50000x1, .f32⟩ : BufTy).Contents (Elt F) → (⟨S50000x1, .f32⟩ : BufTy).Contents (Elt F)),  -- %234
    unary main_v227 main_v235 (broadcastInDim S50000x64 ![0, 1] bcast_S50000x1_S50000x64_0_1 : (⟨S50000x1, .f32⟩ : BufTy).Contents (Elt F) → (⟨S50000x64, .f32⟩ : BufTy).Contents (Elt F)),  -- %235
    binary main_v223 main_v235 main_v236 (subf : (⟨S50000x64, .f32⟩ : BufTy).Contents (Elt F) → (⟨S50000x64, .f32⟩ : BufTy).Contents (Elt F) → (⟨S50000x64, .f32⟩ : BufTy).Contents (Elt F)),  -- %236
    nullary main_cst_53 (constant S_ .f32 0x3727C5AC#32),  -- %cst_53
    unary main_cst_53 main_v237 (broadcastInDim S50000x1 ![] bcast_S_S50000x1 : (⟨S_, .f32⟩ : BufTy).Contents (Elt F) → (⟨S50000x1, .f32⟩ : BufTy).Contents (Elt F)),  -- %237
    binary main_v234 main_v237 main_v238 (addf : (⟨S50000x1, .f32⟩ : BufTy).Contents (Elt F) → (⟨S50000x1, .f32⟩ : BufTy).Contents (Elt F) → (⟨S50000x1, .f32⟩ : BufTy).Contents (Elt F)),  -- %238
    unary main_v238 main_v239 (Host.rsqrt : (⟨S50000x1, .f32⟩ : BufTy).Contents (Elt F) → (⟨S50000x1, .f32⟩ : BufTy).Contents (Elt F)),  -- %239
    unary main_v239 main_v240 (broadcastInDim S50000x64 ![0, 1] bcast_S50000x1_S50000x64_0_1 : (⟨S50000x1, .f32⟩ : BufTy).Contents (Elt F) → (⟨S50000x64, .f32⟩ : BufTy).Contents (Elt F)),  -- %240
    binary main_v236 main_v240 main_v241 (mulf : (⟨S50000x64, .f32⟩ : BufTy).Contents (Elt F) → (⟨S50000x64, .f32⟩ : BufTy).Contents (Elt F) → (⟨S50000x64, .f32⟩ : BufTy).Contents (Elt F)),  -- %241
    unary main_arg16 main_v242 (broadcastInDim S1x64 ![1] bcast_S64_S1x64_1 : (⟨S64, .f32⟩ : BufTy).Contents (Elt F) → (⟨S1x64, .f32⟩ : BufTy).Contents (Elt F)),  -- %242
    unary main_v242 main_v243 (broadcastInDim S50000x64 ![0, 1] bcast_S1x64_S50000x64_0_1 : (⟨S1x64, .f32⟩ : BufTy).Contents (Elt F) → (⟨S50000x64, .f32⟩ : BufTy).Contents (Elt F)) ]  -- %243

/-- Stage H within the printed window `main_part5`: the statements binding %244 … %248, 19 operations. -/
abbrev opsH_p5 : List (HloOp τ sig (Elt F)) :=
  [ binary main_v241 main_v243 main_v244 (mulf : (⟨S50000x64, .f32⟩ : BufTy).Contents (Elt F) → (⟨S50000x64, .f32⟩ : BufTy).Contents (Elt F) → (⟨S50000x64, .f32⟩ : BufTy).Contents (Elt F)),  -- %244
    unary main_arg17 main_v245 (broadcastInDim S1x64 ![1] bcast_S64_S1x64_1 : (⟨S64, .f32⟩ : BufTy).Contents (Elt F) → (⟨S1x64, .f32⟩ : BufTy).Contents (Elt F)),  -- %245
    unary main_v245 main_v246 (broadcastInDim S50000x64 ![0, 1] bcast_S1x64_S50000x64_0_1 : (⟨S1x64, .f32⟩ : BufTy).Contents (Elt F) → (⟨S50000x64, .f32⟩ : BufTy).Contents (Elt F)),  -- %246
    binary main_v244 main_v246 main_v247 (addf : (⟨S50000x64, .f32⟩ : BufTy).Contents (Elt F) → (⟨S50000x64, .f32⟩ : BufTy).Contents (Elt F) → (⟨S50000x64, .f32⟩ : BufTy).Contents (Elt F)),  -- %247
    TRef.nullary main_call6.cst (constant S_ .f32 0x00000000#32),  -- %248: @elu_5's %cst
    TRef.unary main_call6.cst main_call6.v0 (broadcastInDim S50000x64 ![] bcast_S_S50000x64),  -- %248: @elu_5's %0
    TRef.binary (.of main_v247 : TRef sig ⟨S50000x64, .f32⟩) main_call6.v0 main_call6.v1 (cmpf .ogt),  -- %248: @elu_5's %1
    TRef.nullary main_call6.cst_0 (constant S_ .f32 0x00000000#32),  -- %248: @elu_5's %cst_0
    TRef.unary main_call6.cst_0 main_call6.v2 (broadcastInDim S50000x64 ![] bcast_S_S50000x64),  -- %248: @elu_5's %2
    TRef.binary (.of main_v247 : TRef sig ⟨S50000x64, .f32⟩) main_call6.v2 main_call6.v3 (cmpf .ogt),  -- %248: @elu_5's %3
    TRef.nullary main_call6.cst_1 (constant S_ .f32 0x00000000#32),  -- %248: @elu_5's %cst_1
    TRef.unary main_call6.cst_1 main_call6.call0.v0 id,  -- %248: @_where_6's %0
    TRef.unary main_call6.call0.v0 main_call6.call0.v1 (broadcastInDim S50000x64 ![] bcast_S_S50000x64),  -- %248: @_where_6's %1
    TRef.ternary main_call6.v3 main_call6.call0.v1 (.of main_v247 : TRef sig ⟨S50000x64, .f32⟩) main_call6.call0.v2 select,  -- %248: @_where_6's %2
    TRef.unary main_call6.call0.v2 main_call6.v5 Host.expm1,  -- %248: @elu_5's %5
    TRef.nullary main_call6.cst_2 (constant S_ .f32 0x3F800000#32),  -- %248: @elu_5's %cst_2
    TRef.unary main_call6.cst_2 main_call6.v6 (broadcastInDim S50000x64 ![] bcast_S_S50000x64),  -- %248: @elu_5's %6
    TRef.binary main_call6.v6 main_call6.v5 main_call6.v7 mulf,  -- %248: @elu_5's %7
    TRef.ternary main_call6.v1 (.of main_v247 : TRef sig ⟨S50000x64, .f32⟩) main_call6.v7 main_call6.call1.v0 select ]  -- %248: @_where_7's %0

/-- Stage Fn within the printed window `main_part5`: the statements binding %249 … %252, 4 operations. -/
abbrev opsFn_p5 : List (HloOp τ sig (Elt F)) :=
  [ binary main_v248 main_arg18 main_v249 ((fun l r => Host.dotGeneral dot_S50000x64_S64x500_S50000x500_1_0_0_1_n_n none l r) : (⟨S50000x64, .f32⟩ : BufTy).Contents (Elt F) → (⟨S64x500, .f32⟩ : BufTy).Contents (Elt F) → (⟨S50000x500, .f32⟩ : BufTy).Contents (Elt F)),  -- %249
    unary main_arg19 main_v250 (broadcastInDim S1x500 ![1] bcast_S500_S1x500_1 : (⟨S500, .f32⟩ : BufTy).Contents (Elt F) → (⟨S1x500, .f32⟩ : BufTy).Contents (Elt F)),  -- %250
    unary main_v250 main_v251 (broadcastInDim S50000x500 ![0, 1] bcast_S1x500_S50000x500_0_1 : (⟨S1x500, .f32⟩ : BufTy).Contents (Elt F) → (⟨S50000x500, .f32⟩ : BufTy).Contents (Elt F)),  -- %251
    binary main_v249 main_v251 main_v252 (addf : (⟨S50000x500, .f32⟩ : BufTy).Contents (Elt F) → (⟨S50000x500, .f32⟩ : BufTy).Contents (Elt F) → (⟨S50000x500, .f32⟩ : BufTy).Contents (Elt F)) ]  -- %252

/-- Stage A1: 62 operations. -/
abbrev opsA1 : List (HloOp τ sig (Elt F)) := opsA1_p0

/-- Stage N1: 47 operations. -/
abbrev opsN1 : List (HloOp τ sig (Elt F)) := opsN1_p1

/-- Stage A2: 58 operations. -/
abbrev opsA2 : List (HloOp τ sig (Elt F)) := opsA2_p1 ++ opsA2_p2

/-- Stage N2: 47 operations. -/
abbrev opsN2 : List (HloOp τ sig (Elt F)) := opsN2_p2 ++ opsN2_p3

/-- Stage A3: 58 operations. -/
abbrev opsA3 : List (HloOp τ sig (Elt F)) := opsA3_p3

/-- Stage N3: 47 operations. -/
abbrev opsN3 : List (HloOp τ sig (Elt F)) := opsN3_p3 ++ opsN3_p4

/-- Stage H: 48 operations. -/
abbrev opsH : List (HloOp τ sig (Elt F)) := opsH_p4 ++ opsH_p5

/-- Stage Fn: 4 operations. -/
abbrev opsFn : List (HloOp τ sig (Elt F)) := opsFn_p5

/-- The printed window `main_part0`, as its slices. -/
abbrev part0 : List (HloOp τ sig (Elt F)) := opsA1_p0

/-- The printed window `main_part1`, as its slices. -/
abbrev part1 : List (HloOp τ sig (Elt F)) := opsN1_p1 ++ opsA2_p1

/-- The printed window `main_part2`, as its slices. -/
abbrev part2 : List (HloOp τ sig (Elt F)) := opsA2_p2 ++ opsN2_p2

/-- The printed window `main_part3`, as its slices. -/
abbrev part3 : List (HloOp τ sig (Elt F)) := opsN2_p3 ++ opsA3_p3 ++ opsN3_p3

/-- The printed window `main_part4`, as its slices. -/
abbrev part4 : List (HloOp τ sig (Elt F)) := opsN3_p4 ++ opsH_p4

/-- The printed window `main_part5`, as its slices. -/
abbrev part5 : List (HloOp τ sig (Elt F)) := opsH_p5 ++ opsFn_p5

/-- @main's 371 operations, in order, stage by stage. -/
abbrev ops : List (HloOp τ sig (Elt F)) := opsA1 ++ opsN1 ++ opsA2 ++ opsN2 ++ opsA3 ++ opsN3 ++ opsH ++ opsFn

end Cert.ReferenceIdeal.HandRun

end
-- ==== Proof.RefRun.lean ====
import proofs.«140160_j6760278524492_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem seq_then {Λ : Labels} {p q : Prog (TpuEff nD τ sig (Elt F) Λ .tc) PUnit} {l₁ l₂ : List (HloOp τ sig (Elt F))}
    (hp : p = seq l₁) (hq : q = seq l₂) : (p >>= fun _ => q) = seq (l₁ ++ l₂) := by
  rw [seq_append, hp, hq]

theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

set_option maxRecDepth 4096 in
theorem part0_eq (c : Dev nD) : main_part0 (F := F) c = seq part0 := by
  simp only [main_part0, part0, opsA1_p0, fn_where.body, seq, bind_assoc, pure_bind]
  rfl

set_option maxRecDepth 4096 in
theorem part1_eq (c : Dev nD) : main_part1 (F := F) c = seq part1 := by
  rw [show (part1 : List (HloOp τ sig (Elt F))) = opsN1_p1 ++ opsA2_p1 from rfl, seq_append]
  simp only [main_part1, opsN1_p1, opsA2_p1, fn_elu.body, fn_where_0.body, fn_where_1.body, fn_where.body, seq,
    bind_assoc, pure_bind]
  rfl

set_option maxRecDepth 4096 in
theorem part2_eq (c : Dev nD) : main_part2 (F := F) c = seq part2 := by
  rw [show (part2 : List (HloOp τ sig (Elt F))) = opsA2_p2 ++ opsN2_p2 from rfl, seq_append]
  simp only [main_part2, opsA2_p2, opsN2_p2, seq, bind_assoc, pure_bind]
  rfl

set_option maxRecDepth 4096 in
theorem part3_eq (c : Dev nD) : main_part3 (F := F) c = seq part3 := by
  rw [show (part3 : List (HloOp τ sig (Elt F))) = opsN2_p3 ++ opsA3_p3 ++ opsN3_p3 from rfl, seq_append, seq_append]
  simp only [main_part3, opsN2_p3, opsA3_p3, opsN3_p3, fn_elu_2.body, fn_where_3.body, fn_where_4.body, fn_where.body, seq,
    bind_assoc, pure_bind]
  rfl

set_option maxRecDepth 4096 in
theorem part4_eq (c : Dev nD) : main_part4 (F := F) c = seq part4 := by
  rw [show (part4 : List (HloOp τ sig (Elt F))) = opsN3_p4 ++ opsH_p4 from rfl, seq_append]
  simp only [main_part4, opsN3_p4, opsH_p4, fn_elu.body, fn_where_0.body, fn_where_1.body, seq, bind_assoc, pure_bind]
  rfl

set_option maxRecDepth 4096 in
theorem part5_eq (c : Dev nD) : main_part5 (F := F) c = seq part5 := by
  rw [show (part5 : List (HloOp τ sig (Elt F))) = opsH_p5 ++ opsFn_p5 from rfl, seq_append]
  simp only [main_part5, opsH_p5, opsFn_p5, fn_elu_5.body, fn_where_6.body, fn_where_7.body, seq, bind_assoc, pure_bind]

theorem ops_eq_parts :
    (ops : List (HloOp τ sig (Elt F))) = part0 ++ (part1 ++ (part2 ++ (part3 ++ (part4 ++ part5)))) := by
  simp only [ops, opsA1, opsN1, opsA2, opsN2, opsA3, opsN3, opsH, opsFn, part0, part1, part2, part3, part4, part5,
    List.append_assoc]

theorem main_eq (c : Dev nD) : main (F := F) c = seq ops := by
  rw [ops_eq_parts]
  exact seq_then (part0_eq c) (seq_then (part1_eq c) (seq_then (part2_eq c) (seq_then (part3_eq c)
    (seq_then (part4_eq c) (part5_eq c)))))

theorem scopedRefs_eq : (Finset.univ.filter fun b : Ref sig .tc => b.isScoped) = ∅ := by decide

theorem scopedSems_eq : (Finset.univ.filter fun sm : SemLoc sig => sm.isScoped .tc) = ∅ := by decide

abbrev OnTc (op : HloOp τ sig (Elt F)) : Prop := op.bufs ⊆ tcRefs τ sig

abbrev Determined (op : HloOp τ sig (Elt F)) : Prop := op.fresh = ∅

local macro "slice_sub" s:ident : tactic =>
  `(tactic| simp only [$s:ident, List.forall_cons, List.Forall, nullary_bufs_sub, unary_bufs_sub, binary_bufs_sub,
      ternary_bufs_sub, reshape_bufs_sub, and_self])

local macro "slice_fresh" : tactic =>
  `(tactic| (intro _ h; (repeat (cases h with | head => rfl | tail _ h => ?_)); exact nomatch h))

theorem sub_A1_p0 : (opsA1_p0 : List (HloOp τ sig (Elt F))).Forall OnTc := by slice_sub opsA1_p0
theorem sub_N1_p1 : (opsN1_p1 : List (HloOp τ sig (Elt F))).Forall OnTc := by slice_sub opsN1_p1
theorem sub_A2_p1 : (opsA2_p1 : List (HloOp τ sig (Elt F))).Forall OnTc := by slice_sub opsA2_p1
theorem sub_A2_p2 : (opsA2_p2 : List (HloOp τ sig (Elt F))).Forall OnTc := by slice_sub opsA2_p2
theorem sub_N2_p2 : (opsN2_p2 : List (HloOp τ sig (Elt F))).Forall OnTc := by slice_sub opsN2_p2
theorem sub_N2_p3 : (opsN2_p3 : List (HloOp τ sig (Elt F))).Forall OnTc := by slice_sub opsN2_p3
theorem sub_A3_p3 : (opsA3_p3 : List (HloOp τ sig (Elt F))).Forall OnTc := by slice_sub opsA3_p3
theorem sub_N3_p3 : (opsN3_p3 : List (HloOp τ sig (Elt F))).Forall OnTc := by slice_sub opsN3_p3
theorem sub_N3_p4 : (opsN3_p4 : List (HloOp τ sig (Elt F))).Forall OnTc := by slice_sub opsN3_p4
theorem sub_H_p4 : (opsH_p4 : List (HloOp τ sig (Elt F))).Forall OnTc := by slice_sub opsH_p4
theorem sub_H_p5 : (opsH_p5 : List (HloOp τ sig (Elt F))).Forall OnTc := by slice_sub opsH_p5
theorem sub_Fn_p5 : (opsFn_p5 : List (HloOp τ sig (Elt F))).Forall OnTc := by slice_sub opsFn_p5

theorem ops_sub : (ops : List (HloOp τ sig (Elt F))).Forall fun op => op.bufs ⊆ tcRefs τ sig :=
  forall_append (forall_append (forall_append (forall_append (forall_append (forall_append (forall_append
    sub_A1_p0 sub_N1_p1) (forall_append sub_A2_p1 sub_A2_p2)) (forall_append sub_N2_p2 sub_N2_p3)) sub_A3_p3)
    (forall_append sub_N3_p3 sub_N3_p4)) (forall_append sub_H_p4 sub_H_p5)) sub_Fn_p5

theorem fresh_A1_p0 : ∀ op ∈ (opsA1_p0 : List (HloOp τ sig (Elt F))), Determined op := by slice_fresh
theorem fresh_N1_p1 : ∀ op ∈ (opsN1_p1 : List (HloOp τ sig (Elt F))), Determined op := by slice_fresh
theorem fresh_A2_p1 : ∀ op ∈ (opsA2_p1 : List (HloOp τ sig (Elt F))), Determined op := by slice_fresh
theorem fresh_A2_p2 : ∀ op ∈ (opsA2_p2 : List (HloOp τ sig (Elt F))), Determined op := by slice_fresh
theorem fresh_N2_p2 : ∀ op ∈ (opsN2_p2 : List (HloOp τ sig (Elt F))), Determined op := by slice_fresh
theorem fresh_N2_p3 : ∀ op ∈ (opsN2_p3 : List (HloOp τ sig (Elt F))), Determined op := by slice_fresh
theorem fresh_A3_p3 : ∀ op ∈ (opsA3_p3 : List (HloOp τ sig (Elt F))), Determined op := by slice_fresh
theorem fresh_N3_p3 : ∀ op ∈ (opsN3_p3 : List (HloOp τ sig (Elt F))), Determined op := by slice_fresh
theorem fresh_N3_p4 : ∀ op ∈ (opsN3_p4 : List (HloOp τ sig (Elt F))), Determined op := by slice_fresh
theorem fresh_H_p4 : ∀ op ∈ (opsH_p4 : List (HloOp τ sig (Elt F))), Determined op := by slice_fresh
theorem fresh_H_p5 : ∀ op ∈ (opsH_p5 : List (HloOp τ sig (Elt F))), Determined op := by slice_fresh
theorem fresh_Fn_p5 : ∀ op ∈ (opsFn_p5 : List (HloOp τ sig (Elt F))), Determined op := by slice_fresh

theorem mem_append_elim {p : HloOp τ sig (Elt F) → Prop} {l₁ l₂ : List (HloOp τ sig (Elt F))}
    (h₁ : ∀ op ∈ l₁, p op) (h₂ : ∀ op ∈ l₂, p op) : ∀ op ∈ l₁ ++ l₂, p op :=
  fun op h => (List.mem_append.1 h).elim (h₁ op) (h₂ op)

theorem ops_fresh : ∀ op ∈ (ops : List (HloOp τ sig (Elt F))), op.fresh = ∅ :=
  mem_append_elim (mem_append_elim (mem_append_elim (mem_append_elim (mem_append_elim (mem_append_elim (mem_append_elim
    fresh_A1_p0 fresh_N1_p1) (mem_append_elim fresh_A2_p1 fresh_A2_p2)) (mem_append_elim fresh_N2_p2 fresh_N2_p3)) fresh_A3_p3)
    (mem_append_elim fresh_N3_p3 fresh_N3_p4)) (mem_append_elim fresh_H_p4 fresh_H_p5)) fresh_Fn_p5

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

theorem after_ops (V : Valuation τ sig (Elt F)) :
    after ops V = after opsFn (after opsH (after opsN3 (after opsA3 (after opsN2 (after opsA2 (after opsN1 (after opsA1 V))))))) := by
  simp only [ops, opsA2, opsN2, opsN3, opsH, after_append]

end Cert.ReferenceIdeal.HandRun

end
-- ==== Proof.RefWrites.lean ====
/- The references each stage of the reference program's @main writes, in program order: one entry per operation of
   the stage's list, the operation's result reference. A reference outside a stage's list keeps its contents through
   the stage. -/
import proofs.«140160_j6760278524492_1_alg».proof.Proof.RefOps

namespace Cert.ReferenceIdeal.HandRun

open Cert.ReferenceIdeal Idealize.ShloMosaic Idealize.SL.Sem

/-- What stage A1's 62 operations write. -/
abbrev opsA1_W : List (Ref sig .tc) :=
  [ main_v0, main_v1, main_v2, main_v3, main_v4, main_cst, main_v5, main_cst_0,
    main_v6, main_v7, main_v8, main_cst_1, main_v9, main_v10, main_cst_2, main_v11,
    main_v12, main_v13, main_cst_3, main_call0.v0.ref, main_call0.v1.ref, main_call0.v2.ref, main_c, main_v15,
    main_v16, main_c_4, main_v17, main_v18, main_v19, main_v20, main_v21, main_c_5,
    main_v22, main_v23, main_c_6, main_v24, main_v25, main_v26, main_v27, main_v28,
    main_v29, main_c_7, main_v30, main_v31, main_c_8, main_v32, main_v33, main_v34,
    main_v35, main_v36, main_v37, main_v38, main_v39, main_cst_9, main_v40, main_v41,
    main_v42, main_v43, main_v44, main_v45, main_v46, main_v47 ]

/-- What stage N1's 47 operations write. -/
abbrev opsN1_W : List (Ref sig .tc) :=
  [ main_v48, main_v49, main_v50, main_cst_10, main_v51, main_v52, main_cst_11, main_v53,
    main_v54, main_v55, main_v56, main_v57, main_cst_12, main_v58, main_v59, main_cst_13,
    main_v60, main_v61, main_v62, main_v63, main_cst_14, main_v64, main_v65, main_v66,
    main_v67, main_v68, main_v69, main_v70, main_v71, main_v72, main_v73, main_v74,
    main_call1.cst.ref, main_call1.v0.ref, main_call1.v1.ref, main_call1.cst_0.ref, main_call1.v2.ref, main_call1.v3.ref, main_call1.cst_1.ref, main_call1.call0.v0.ref,
    main_call1.call0.v1.ref, main_call1.call0.v2.ref, main_call1.v5.ref, main_call1.cst_2.ref, main_call1.v6.ref, main_call1.v7.ref, main_call1.call1.v0.ref ]

/-- What stage A2's 58 operations write. -/
abbrev opsA2_W : List (Ref sig .tc) :=
  [ main_v76, main_cst_15, main_v77, main_cst_16, main_v78, main_v79, main_v80, main_cst_17,
    main_v81, main_v82, main_cst_18, main_v83, main_v84, main_v85, main_cst_19, main_call2.v0.ref,
    main_call2.v1.ref, main_call2.v2.ref, main_c_20, main_v87, main_v88, main_c_21, main_v89, main_v90,
    main_v91, main_v92, main_v93, main_c_22, main_v94, main_v95, main_c_23, main_v96,
    main_v97, main_v98, main_v99, main_v100, main_v101, main_c_24, main_v102, main_v103,
    main_c_25, main_v104, main_v105, main_v106, main_v107, main_v108, main_v109, main_v110,
    main_v111, main_cst_26, main_v112, main_v113, main_v114, main_v115, main_v116, main_v117,
    main_v118, main_v119 ]

/-- What stage N2's 47 operations write. -/
abbrev opsN2_W : List (Ref sig .tc) :=
  [ main_v120, main_v121, main_v122, main_cst_27, main_v123, main_v124, main_cst_28, main_v125,
    main_v126, main_v127, main_v128, main_v129, main_cst_29, main_v130, main_v131, main_cst_30,
    main_v132, main_v133, main_v134, main_v135, main_cst_31, main_v136, main_v137, main_v138,
    main_v139, main_v140, main_v141, main_v142, main_v143, main_v144, main_v145, main_v146,
    main_call3.cst.ref, main_call3.v0.ref, main_call3.v1.ref, main_call3.cst_0.ref, main_call3.v2.ref, main_call3.v3.ref, main_call3.cst_1.ref, main_call3.call0.v0.ref,
    main_call3.call0.v1.ref, main_call3.call0.v2.ref, main_call3.v5.ref, main_call3.cst_2.ref, main_call3.v6.ref, main_call3.v7.ref, main_call3.call1.v0.ref ]

/-- What stage A3's 58 operations write. -/
abbrev opsA3_W : List (Ref sig .tc) :=
  [ main_v148, main_cst_32, main_v149, main_cst_33, main_v150, main_v151, main_v152, main_cst_34,
    main_v153, main_v154, main_cst_35, main_v155, main_v156, main_v157, main_cst_36, main_call4.v0.ref,
    main_call4.v1.ref, main_call4.v2.ref, main_c_37, main_v159, main_v160, main_c_38, main_v161, main_v162,
    main_v163, main_v164, main_v165, main_c_39, main_v166, main_v167, main_c_40, main_v168,
    main_v169, main_v170, main_v171, main_v172, main_v173, main_c_41, main_v174, main_v175,
    main_c_42, main_v176, main_v177, main_v178, main_v179, main_v180, main_v181, main_v182,
    main_v183, main_cst_43, main_v184, main_v185, main_v186, main_v187, main_v188, main_v189,
    main_v190, main_v191 ]

/-- What stage N3's 47 operations write. -/
abbrev opsN3_W : List (Ref sig .tc) :=
  [ main_v192, main_v193, main_v194, main_cst_44, main_v195, main_v196, main_cst_45, main_v197,
    main_v198, main_v199, main_v200, main_v201, main_cst_46, main_v202, main_v203, main_cst_47,
    main_v204, main_v205, main_v206, main_v207, main_cst_48, main_v208, main_v209, main_v210,
    main_v211, main_v212, main_v213, main_v214, main_v215, main_v216, main_v217, main_v218,
    main_call5.cst.ref, main_call5.v0.ref, main_call5.v1.ref, main_call5.cst_0.ref, main_call5.v2.ref, main_call5.v3.ref, main_call5.cst_1.ref, main_call5.call0.v0.ref,
    main_call5.call0.v1.ref, main_call5.call0.v2.ref, main_call5.v5.ref, main_call5.cst_2.ref, main_call5.v6.ref, main_call5.v7.ref, main_call5.call1.v0.ref ]

/-- What stage H's 48 operations write. -/
abbrev opsH_W : List (Ref sig .tc) :=
  [ main_v220, main_v221, main_v222, main_v223, main_cst_49, main_v224, main_v225, main_cst_50,
    main_v226, main_v227, main_v228, main_v229, main_v230, main_cst_51, main_v231, main_v232,
    main_cst_52, main_v233, main_v234, main_v235, main_v236, main_cst_53, main_v237, main_v238,
    main_v239, main_v240, main_v241, main_v242, main_v243, main_v244, main_v245, main_v246,
    main_v247, main_call6.cst.ref, main_call6.v0.ref, main_call6.v1.ref, main_call6.cst_0.ref, main_call6.v2.ref, main_call6.v3.ref, main_call6.cst_1.ref,
    main_call6.call0.v0.ref, main_call6.call0.v1.ref, main_call6.call0.v2.ref, main_call6.v5.ref, main_call6.cst_2.ref, main_call6.v6.ref, main_call6.v7.ref, main_call6.call1.v0.ref ]

/-- What stage Fn's 4 operations write. -/
abbrev opsFn_W : List (Ref sig .tc) :=
  [ main_v249, main_v250, main_v251, main_v252 ]

end Cert.ReferenceIdeal.HandRun
-- ==== Proof.RefValA.lean ====
import proofs.«140160_j6760278524492_1_alg».proof.Proof.RefOps
import proofs.«140160_j6760278524492_1_alg».proof.Proof.RefRun
import proofs.«140160_j6760278524492_1_alg».proof.Proof.RefWrites
import proofs.«140160_j6760278524492_1_alg».proof.Proof.HostSpec

noncomputable section

namespace Cert.KernelIdeal.HostSpec

open Idealize.ShloMosaic Idealize.SL.Sem
open Cert.KernelIdeal Cert.KernelIdeal.Gen

def degOf (dst : IVec S800000 32) : FVec Ideal S50000 .f32 :=
  addf
    (Host.scatterAdd scatter_S50000_S800000x1_S800000_n_0_0_1
      (broadcastInDim S50000 ![] bcast_S_S50000 (constant (F := Ideal) S_ .f32 0x00000000#32))
      (col dst)
      (broadcastInDim S800000 ![] bcast_S_S800000 (constant (F := Ideal) S_ .f32 0x3F800000#32)))
    (broadcastInDim S50000 ![] bcast_S_S50000 (constant (F := Ideal) S_ .f32 0x3F800000#32))

def pos (d : FVec Ideal S50000 .f32) : IVec S50000 1 :=
  cmpf .ogt d (broadcastInDim S50000 ![] bcast_S_S50000 (constant (F := Ideal) S_ .f32 0x00000000#32))

def pick (c : IVec S50000 1) (r : FVec Ideal S50000 .f32) (z : FVec Ideal S_ .f32) : FVec Ideal S50000 .f32 :=
  select c r (broadcastInDim S50000 ![] bcast_S_S50000 (id z))

def edgeW (dv : FVec Ideal S50000 .f32) (src dst : IVec S800000 32) : FVec Ideal S800000 .f32 :=
  mulf
    (Host.gather gather_S50000_S800000x1_S800000_n_0_n_n_0_1_1 dv (col (wrapIdx src)))
    (Host.gather gather_S50000_S800000x1_S800000_n_0_n_n_0_1_1 dv (col (wrapIdx dst)))

def dinvOf (dst : IVec S800000 32) : FVec Ideal S50000 .f32 :=
  pick (pos (degOf dst)) (Host.rsqrt (degOf dst)) (constant (F := Ideal) S_ .f32 0x00000000#32)

theorem dinv_eq (e : IVec S2x800000 32) : dinv e = dinvOf (dstIdx e) := rfl

theorem coef_eq (e : IVec S2x800000 32) : coef e = edgeW (dinvOf (dstIdx e)) (srcIdx e) (dstIdx e) := rfl

theorem dinvSq_eq (e : IVec S2x800000 32) : dinvSq e = mulf (dinvOf (dstIdx e)) (dinvOf (dstIdx e)) := rfl

end Cert.KernelIdeal.HostSpec

namespace Cert.ReferenceIdeal.Val

open Idealize.ShloMosaic Idealize.SL.Sem Idealize.ShloMosaic.StableHlo
open Cert.ReferenceIdeal Cert.ReferenceIdeal.HandRun
open Cert.KernelIdeal.HostSpec (srcIdx dstIdx coef dinvSq agg128 agg256 degOf pos pick edgeW dinvOf)

theorem after_cut (k : ℕ) (l : List (HloOp τ sig (Elt Ideal))) (V : Valuation τ sig (Elt Ideal)) :
    after l V = after (l.drop k) (after (l.take k) V) := by
  rw [← HandRun.after_append, List.take_append_drop]

abbrev A1S : List (HloOp τ sig (Elt Ideal)) := (opsA1_p0 (F := Ideal)).take 5

abbrev A1P : List (HloOp τ sig (Elt Ideal)) := ((opsA1_p0 (F := Ideal)).drop 5).take 14

abbrev A1W : List (HloOp τ sig (Elt Ideal)) := (((opsA1_p0 (F := Ideal)).drop 5).drop 14).take 3

abbrev A1C : List (HloOp τ sig (Elt Ideal)) := ((((opsA1_p0 (F := Ideal)).drop 5).drop 14).drop 3).take 19

abbrev A1G : List (HloOp τ sig (Elt Ideal)) := ((((opsA1_p0 (F := Ideal)).drop 5).drop 14).drop 3).drop 19

abbrev A2P : List (HloOp τ sig (Elt Ideal)) := (opsA2_p1 (F := Ideal)).take 15

abbrev A2W : List (HloOp τ sig (Elt Ideal)) := ((opsA2_p1 (F := Ideal)).drop 15).take 3

abbrev A2C1 : List (HloOp τ sig (Elt Ideal)) := ((opsA2_p1 (F := Ideal)).drop 15).drop 3

abbrev A2C2 : List (HloOp τ sig (Elt Ideal)) := (opsA2_p2 (F := Ideal)).take 8

abbrev A2G : List (HloOp τ sig (Elt Ideal)) := (opsA2_p2 (F := Ideal)).drop 8

abbrev A3P : List (HloOp τ sig (Elt Ideal)) := (opsA3_p3 (F := Ideal)).take 15

abbrev A3W : List (HloOp τ sig (Elt Ideal)) := ((opsA3_p3 (F := Ideal)).drop 15).take 3

abbrev A3C : List (HloOp τ sig (Elt Ideal)) := (((opsA3_p3 (F := Ideal)).drop 15).drop 3).take 19

abbrev A3G : List (HloOp τ sig (Elt Ideal)) := (((opsA3_p3 (F := Ideal)).drop 15).drop 3).drop 19

local macro "piece" : tactic =>
  `(tactic| (simp only [A1S, A1P, A1W, A1C, A1G, A2P, A2W, A2C1, A2C2, A2G, A3P, A3W, A3C, A3G,
      opsA1_p0, opsA2_p1, opsA2_p2, opsA3_p3,
      List.take_succ_cons, List.take_zero, List.drop_succ_cons, List.drop_zero]
             after_results_simp))

variable (V : Valuation τ sig (Elt Ideal))

theorem a1S_v1 : after A1S V (Proc.devRef .tc main_v1) = srcIdx (V (Proc.devRef .tc main_arg1)) := by
  piece
  rfl
theorem a1S_v3 : after A1S V (Proc.devRef .tc main_v3) = dstIdx (V (Proc.devRef .tc main_arg1)) := by
  piece
  rfl
theorem a1S_v4 : after A1S V (Proc.devRef .tc main_v4) =
    (Host.dotGeneral (F := Ideal) (φ₁ := .f32) (φ₂ := .f32) dot_S50000x128_S128x128_S50000x128_1_0_0_1_n_n none
      (V (Proc.devRef .tc main_arg0)) (V (Proc.devRef .tc main_arg2)) : FVec Ideal S50000x128 .f32) := by
  piece

theorem a1P_v12 : after A1P V (Proc.devRef .tc main_v12) = pos (degOf (V (Proc.devRef .tc main_v3))) := by
  piece
  rfl
theorem a1P_v13 : after A1P V (Proc.devRef .tc main_v13) =
    (Host.rsqrt (degOf (V (Proc.devRef .tc main_v3))) : FVec Ideal S50000 .f32) := by
  piece
  rfl
theorem a1P_cst3 : after A1P V (Proc.devRef .tc main_cst_3) =
    (constant (F := Ideal) S_ .f32 0x00000000#32 : FVec Ideal S_ .f32) := by
  piece
theorem a1P_v1 : after A1P V (Proc.devRef .tc main_v1) = V (Proc.devRef .tc main_v1) := by piece
theorem a1P_v3 : after A1P V (Proc.devRef .tc main_v3) = V (Proc.devRef .tc main_v3) := by piece
theorem a1P_v4 : after A1P V (Proc.devRef .tc main_v4) = V (Proc.devRef .tc main_v4) := by piece

theorem a1W_v14 : after A1W V (Proc.devRef .tc main_v14) =
    pick (V (Proc.devRef .tc main_v12)) (V (Proc.devRef .tc main_v13)) (V (Proc.devRef .tc main_cst_3)) := by
  piece
  rfl
theorem a1W_v1 : after A1W V (Proc.devRef .tc main_v1) = V (Proc.devRef .tc main_v1) := by piece
theorem a1W_v3 : after A1W V (Proc.devRef .tc main_v3) = V (Proc.devRef .tc main_v3) := by piece
theorem a1W_v4 : after A1W V (Proc.devRef .tc main_v4) = V (Proc.devRef .tc main_v4) := by piece

theorem a1C_v29 : after A1C V (Proc.devRef .tc main_v29) =
    edgeW (V (Proc.devRef .tc main_v14)) (V (Proc.devRef .tc main_v1)) (V (Proc.devRef .tc main_v3)) := by
  piece
  rfl
theorem a1C_v1 : after A1C V (Proc.devRef .tc main_v1) = V (Proc.devRef .tc main_v1) := by piece
theorem a1C_v3 : after A1C V (Proc.devRef .tc main_v3) = V (Proc.devRef .tc main_v3) := by piece
theorem a1C_v4 : after A1C V (Proc.devRef .tc main_v4) = V (Proc.devRef .tc main_v4) := by piece
theorem a1C_v14 : after A1C V (Proc.devRef .tc main_v14) = V (Proc.devRef .tc main_v14) := by piece

theorem a1G_v47 : after A1G V (Proc.devRef .tc main_v47) =
    agg128 (V (Proc.devRef .tc main_v4)) (V (Proc.devRef .tc main_v1)) (V (Proc.devRef .tc main_v3))
      (V (Proc.devRef .tc main_v29))
      (mulf (V (Proc.devRef .tc main_v14)) (V (Proc.devRef .tc main_v14)) : FVec Ideal S50000 .f32) := by
  piece
  rfl
theorem a1G_v1 : after A1G V (Proc.devRef .tc main_v1) = V (Proc.devRef .tc main_v1) := by piece
theorem a1G_v3 : after A1G V (Proc.devRef .tc main_v3) = V (Proc.devRef .tc main_v3) := by piece

theorem foldA1 : after (opsA1 (F := Ideal)) V = after A1G (after A1C (after A1W (after A1P (after A1S V)))) := by
  rw [show (opsA1 (F := Ideal)) = opsA1_p0 from rfl, after_cut 5 opsA1_p0, after_cut 14 (List.drop 5 opsA1_p0),
    after_cut 3 (List.drop 14 (List.drop 5 opsA1_p0)), after_cut 19 (List.drop 3 (List.drop 14 (List.drop 5 opsA1_p0)))]

theorem stageA1_v1 : after (opsA1 (F := Ideal)) V (Proc.devRef .tc main_v1) = srcIdx (V (Proc.devRef .tc main_arg1)) := by
  rw [foldA1, a1G_v1, a1C_v1, a1W_v1, a1P_v1, a1S_v1]

theorem stageA1_v3 : after (opsA1 (F := Ideal)) V (Proc.devRef .tc main_v3) = dstIdx (V (Proc.devRef .tc main_arg1)) := by
  rw [foldA1, a1G_v3, a1C_v3, a1W_v3, a1P_v3, a1S_v3]

theorem stageA1 :
    (after (opsA1 (F := Ideal)) V (Proc.devRef .tc main_v47) : FVec Ideal S50000x128 .f32) =
      agg128
        (Host.dotGeneral (F := Ideal) (φ₁ := .f32) (φ₂ := .f32) dot_S50000x128_S128x128_S50000x128_1_0_0_1_n_n none
      (V (Proc.devRef .tc main_arg0)) (V (Proc.devRef .tc main_arg2)))
        (srcIdx (V (Proc.devRef .tc main_arg1))) (dstIdx (V (Proc.devRef .tc main_arg1)))
        (coef (V (Proc.devRef .tc main_arg1))) (dinvSq (V (Proc.devRef .tc main_arg1))) := by
  rw [foldA1, a1G_v47, a1C_v4, a1C_v1, a1C_v3, a1C_v29, a1C_v14, a1W_v4, a1W_v1, a1W_v3, a1W_v14,
    a1P_v4, a1P_v1, a1P_v3, a1P_v12, a1P_v13, a1P_cst3, a1S_v4, a1S_v1, a1S_v3,
    Cert.KernelIdeal.HostSpec.coef_eq, Cert.KernelIdeal.HostSpec.dinvSq_eq]
  rfl

theorem a2P_v76 : after A2P V (Proc.devRef .tc main_v76) =
    (Host.dotGeneral (F := Ideal) (φ₁ := .f32) (φ₂ := .f32) dot_S50000x128_S128x256_S50000x256_1_0_0_1_n_n none
      (V (Proc.devRef .tc main_v75)) (V (Proc.devRef .tc main_arg6)) : FVec Ideal S50000x256 .f32) := by
  piece
theorem a2P_v84 : after A2P V (Proc.devRef .tc main_v84) = pos (degOf (V (Proc.devRef .tc main_v3))) := by
  piece
  rfl
theorem a2P_v85 : after A2P V (Proc.devRef .tc main_v85) =
    (Host.rsqrt (degOf (V (Proc.devRef .tc main_v3))) : FVec Ideal S50000 .f32) := by
  piece
  rfl
theorem a2P_cst19 : after A2P V (Proc.devRef .tc main_cst_19) =
    (constant (F := Ideal) S_ .f32 0x00000000#32 : FVec Ideal S_ .f32) := by
  piece
theorem a2P_v1 : after A2P V (Proc.devRef .tc main_v1) = V (Proc.devRef .tc main_v1) := by piece
theorem a2P_v3 : after A2P V (Proc.devRef .tc main_v3) = V (Proc.devRef .tc main_v3) := by piece

theorem a2W_v86 : after A2W V (Proc.devRef .tc main_v86) =
    pick (V (Proc.devRef .tc main_v84)) (V (Proc.devRef .tc main_v85)) (V (Proc.devRef .tc main_cst_19)) := by
  piece
  rfl
theorem a2W_v1 : after A2W V (Proc.devRef .tc main_v1) = V (Proc.devRef .tc main_v1) := by piece
theorem a2W_v3 : after A2W V (Proc.devRef .tc main_v3) = V (Proc.devRef .tc main_v3) := by piece
theorem a2W_v76 : after A2W V (Proc.devRef .tc main_v76) = V (Proc.devRef .tc main_v76) := by piece

theorem a2C_v101 : after A2C2 (after A2C1 V) (Proc.devRef .tc main_v101) =
    edgeW (V (Proc.devRef .tc main_v86)) (V (Proc.devRef .tc main_v1)) (V (Proc.devRef .tc main_v3)) := by
  piece
  rfl
theorem a2C_v1 : after A2C2 (after A2C1 V) (Proc.devRef .tc main_v1) = V (Proc.devRef .tc main_v1) := by piece
theorem a2C_v3 : after A2C2 (after A2C1 V) (Proc.devRef .tc main_v3) = V (Proc.devRef .tc main_v3) := by piece
theorem a2C_v76 : after A2C2 (after A2C1 V) (Proc.devRef .tc main_v76) = V (Proc.devRef .tc main_v76) := by piece
theorem a2C_v86 : after A2C2 (after A2C1 V) (Proc.devRef .tc main_v86) = V (Proc.devRef .tc main_v86) := by piece

theorem a2G_v119 : after A2G V (Proc.devRef .tc main_v119) =
    agg256 (V (Proc.devRef .tc main_v76)) (V (Proc.devRef .tc main_v1)) (V (Proc.devRef .tc main_v3))
      (V (Proc.devRef .tc main_v101))
      (mulf (V (Proc.devRef .tc main_v86)) (V (Proc.devRef .tc main_v86)) : FVec Ideal S50000 .f32) := by
  piece
  rfl

theorem foldA2 : after (opsA2 (F := Ideal)) V = after A2G (after A2C2 (after A2C1 (after A2W (after A2P V)))) := by
  rw [show (opsA2 (F := Ideal)) = opsA2_p1 ++ opsA2_p2 from rfl, HandRun.after_append, after_cut 15 opsA2_p1,
    after_cut 3 (List.drop 15 opsA2_p1), after_cut 8 opsA2_p2]

theorem stageA2 (e : IVec S2x800000 32)
    (h1 : V (Proc.devRef .tc main_v1) = srcIdx e) (h3 : V (Proc.devRef .tc main_v3) = dstIdx e) :
    (after (opsA2 (F := Ideal)) V (Proc.devRef .tc main_v119) : FVec Ideal S50000x256 .f32) =
      agg256
        (Host.dotGeneral (F := Ideal) (φ₁ := .f32) (φ₂ := .f32) dot_S50000x128_S128x256_S50000x256_1_0_0_1_n_n none
      (V (Proc.devRef .tc main_v75)) (V (Proc.devRef .tc main_arg6)))
        (srcIdx e) (dstIdx e) (coef e) (dinvSq e) := by
  rw [foldA2, a2G_v119, a2C_v76, a2C_v1, a2C_v3, a2C_v101, a2C_v86, a2W_v76, a2W_v1, a2W_v3, a2W_v86,
    a2P_v76, a2P_v1, a2P_v3, a2P_v84, a2P_v85, a2P_cst19, h1, h3,
    Cert.KernelIdeal.HostSpec.coef_eq, Cert.KernelIdeal.HostSpec.dinvSq_eq]
  rfl

theorem a3P_v148 : after A3P V (Proc.devRef .tc main_v148) =
    (Host.dotGeneral (F := Ideal) (φ₁ := .f32) (φ₂ := .f32) dot_S50000x256_S256x128_S50000x128_1_0_0_1_n_n none
      (V (Proc.devRef .tc main_v147)) (V (Proc.devRef .tc main_arg10)) : FVec Ideal S50000x128 .f32) := by
  piece
theorem a3P_v156 : after A3P V (Proc.devRef .tc main_v156) = pos (degOf (V (Proc.devRef .tc main_v3))) := by
  piece
  rfl
theorem a3P_v157 : after A3P V (Proc.devRef .tc main_v157) =
    (Host.rsqrt (degOf (V (Proc.devRef .tc main_v3))) : FVec Ideal S50000 .f32) := by
  piece
  rfl
theorem a3P_cst36 : after A3P V (Proc.devRef .tc main_cst_36) =
    (constant (F := Ideal) S_ .f32 0x00000000#32 : FVec Ideal S_ .f32) := by
  piece
theorem a3P_v1 : after A3P V (Proc.devRef .tc main_v1) = V (Proc.devRef .tc main_v1) := by piece
theorem a3P_v3 : after A3P V (Proc.devRef .tc main_v3) = V (Proc.devRef .tc main_v3) := by piece

theorem a3W_v158 : after A3W V (Proc.devRef .tc main_v158) =
    pick (V (Proc.devRef .tc main_v156)) (V (Proc.devRef .tc main_v157)) (V (Proc.devRef .tc main_cst_36)) := by
  piece
  rfl
theorem a3W_v1 : after A3W V (Proc.devRef .tc main_v1) = V (Proc.devRef .tc main_v1) := by piece
theorem a3W_v3 : after A3W V (Proc.devRef .tc main_v3) = V (Proc.devRef .tc main_v3) := by piece
theorem a3W_v148 : after A3W V (Proc.devRef .tc main_v148) = V (Proc.devRef .tc main_v148) := by piece

theorem a3C_v173 : after A3C V (Proc.devRef .tc main_v173) =
    edgeW (V (Proc.devRef .tc main_v158)) (V (Proc.devRef .tc main_v1)) (V (Proc.devRef .tc main_v3)) := by
  piece
  rfl
theorem a3C_v1 : after A3C V (Proc.devRef .tc main_v1) = V (Proc.devRef .tc main_v1) := by piece
theorem a3C_v3 : after A3C V (Proc.devRef .tc main_v3) = V (Proc.devRef .tc main_v3) := by piece
theorem a3C_v148 : after A3C V (Proc.devRef .tc main_v148) = V (Proc.devRef .tc main_v148) := by piece
theorem a3C_v158 : after A3C V (Proc.devRef .tc main_v158) = V (Proc.devRef .tc main_v158) := by piece

theorem a3G_v191 : after A3G V (Proc.devRef .tc main_v191) =
    agg128 (V (Proc.devRef .tc main_v148)) (V (Proc.devRef .tc main_v1)) (V (Proc.devRef .tc main_v3))
      (V (Proc.devRef .tc main_v173))
      (mulf (V (Proc.devRef .tc main_v158)) (V (Proc.devRef .tc main_v158)) : FVec Ideal S50000 .f32) := by
  piece
  rfl

theorem foldA3 : after (opsA3 (F := Ideal)) V = after A3G (after A3C (after A3W (after A3P V))) := by
  rw [show (opsA3 (F := Ideal)) = opsA3_p3 from rfl, after_cut 15 opsA3_p3, after_cut 3 (List.drop 15 opsA3_p3),
    after_cut 19 (List.drop 3 (List.drop 15 opsA3_p3))]

theorem stageA3 (e : IVec S2x800000 32)
    (h1 : V (Proc.devRef .tc main_v1) = srcIdx e) (h3 : V (Proc.devRef .tc main_v3) = dstIdx e) :
    (after (opsA3 (F := Ideal)) V (Proc.devRef .tc main_v191) : FVec Ideal S50000x128 .f32) =
      agg128
        (Host.dotGeneral (F := Ideal) (φ₁ := .f32) (φ₂ := .f32) dot_S50000x256_S256x128_S50000x128_1_0_0_1_n_n none
      (V (Proc.devRef .tc main_v147)) (V (Proc.devRef .tc main_arg10)))
        (srcIdx e) (dstIdx e) (coef e) (dinvSq e) := by
  rw [foldA3, a3G_v191, a3C_v148, a3C_v1, a3C_v3, a3C_v173, a3C_v158, a3W_v148, a3W_v1, a3W_v3, a3W_v158,
    a3P_v148, a3P_v1, a3P_v3, a3P_v156, a3P_v157, a3P_cst36, h1, h3,
    Cert.KernelIdeal.HostSpec.coef_eq, Cert.KernelIdeal.HostSpec.dinvSq_eq]
  rfl

end Cert.ReferenceIdeal.Val

end
-- ==== Proof.RefValN.lean ====
import proofs.«140160_j6760278524492_1_alg».proof.Proof.RefOps
import proofs.«140160_j6760278524492_1_alg».proof.Proof.RefRun
import proofs.«140160_j6760278524492_1_alg».proof.Proof.RefLN

noncomputable section

namespace Cert.ReferenceIdeal.Val

open Cert.ReferenceIdeal Cert.ReferenceIdeal.Gen Cert.ReferenceIdeal.HandRun Cert.ReferenceIdeal.Stage
open Idealize.ShloMosaic Idealize.ShloMosaic.TcCoe Idealize.SL.Sem Idealize.ShloMosaic.StableHlo

attribute [local irreducible] Host.reduceAdd Host.divf Host.rsqrt Host.expm1 broadcastInDim in
set_option maxRecDepth 8192 in

theorem stageN1 (V : Valuation τ sig (Elt Ideal)) :
    (after (opsN1 (F := Ideal)) V (main_v75 : DevRef τ sig) : FVec Ideal S50000x128 .f32)
      = lnElu128 (V (main_v47 : DevRef τ sig)) (V (main_arg3 : DevRef τ sig)) (V (main_arg4 : DevRef τ sig))
          (V (main_arg5 : DevRef τ sig)) := by
  after_results_simp
  rfl

attribute [local irreducible] Host.reduceAdd Host.divf Host.rsqrt Host.expm1 broadcastInDim in
set_option maxRecDepth 8192 in

theorem stageN2 (V : Valuation τ sig (Elt Ideal)) :
    (after (opsN2 (F := Ideal)) V (main_v147 : DevRef τ sig) : FVec Ideal S50000x256 .f32)
      = lnElu256 (V (main_v119 : DevRef τ sig)) (V (main_arg7 : DevRef τ sig)) (V (main_arg8 : DevRef τ sig))
          (V (main_arg9 : DevRef τ sig)) := by
  show after (opsN2_p2 ++ opsN2_p3) V _ = _
  rw [after_append]
  after_results_simp
  rfl

attribute [local irreducible] Host.reduceAdd Host.divf Host.rsqrt Host.expm1 broadcastInDim in
set_option maxRecDepth 8192 in

theorem stageN3 (V : Valuation τ sig (Elt Ideal)) :
    (after (opsN3 (F := Ideal)) V (main_v219 : DevRef τ sig) : FVec Ideal S50000x128 .f32)
      = lnElu128 (V (main_v191 : DevRef τ sig)) (V (main_arg11 : DevRef τ sig)) (V (main_arg12 : DevRef τ sig))
          (V (main_arg13 : DevRef τ sig)) := by
  show after (opsN3_p3 ++ opsN3_p4) V _ = _
  rw [after_append]
  after_results_simp
  rfl

attribute [local irreducible] Host.reduceAdd Host.divf Host.rsqrt Host.expm1 broadcastInDim in
set_option maxRecDepth 8192 in

theorem stageH (V : Valuation τ sig (Elt Ideal)) :
    (after (opsH (F := Ideal)) V (main_v248 : DevRef τ sig) : FVec Ideal S50000x64 .f32)
      = lnElu64 (Host.dotGeneral (F := Ideal) (φ₁ := .f32) (φ₂ := .f32) dot_S50000x128_S128x64_S50000x64_1_0_0_1_n_n none
            (V (main_v219 : DevRef τ sig)) (V (main_arg14 : DevRef τ sig)))
          (V (main_arg15 : DevRef τ sig)) (V (main_arg16 : DevRef τ sig)) (V (main_arg17 : DevRef τ sig)) := by
  show after (opsH_p4 ++ opsH_p5) V _ = _
  rw [after_append]
  after_results_simp
  rfl

attribute [local irreducible] Host.reduceAdd Host.divf Host.rsqrt Host.expm1 broadcastInDim in
set_option maxRecDepth 8192 in

theorem stageFn (V : Valuation τ sig (Elt Ideal)) :
    (after (opsFn (F := Ideal)) V (main_v252 : DevRef τ sig) : FVec Ideal S50000x500 .f32)
      = addf (Host.dotGeneral (F := Ideal) (φ₁ := .f32) (φ₂ := .f32) dot_S50000x64_S64x500_S50000x500_1_0_0_1_n_n none
            (V (main_v248 : DevRef τ sig)) (V (main_arg18 : DevRef τ sig)))
          (broadcastInDim S50000x500 ![0, 1] bcast_S1x500_S50000x500_0_1
            (broadcastInDim S1x500 ![1] bcast_S500_S1x500_1 (V (main_arg19 : DevRef τ sig)))) := by
  after_results_simp

end Cert.ReferenceIdeal.Val

end
-- ==== Proof.RefVal.lean ====
import proofs.«140160_j6760278524492_1_alg».proof.Proof.RefRun
import proofs.«140160_j6760278524492_1_alg».proof.Proof.RefWrites
import proofs.«140160_j6760278524492_1_alg».proof.Proof.RefValA
import proofs.«140160_j6760278524492_1_alg».proof.Proof.RefValN
import proofs.«140160_j6760278524492_1_alg».proof.Proof.Final

noncomputable section

namespace Cert.ReferenceIdeal.HandRun

open Cert.ReferenceIdeal Cert.ReferenceIdeal.Gen
open Idealize.ShloMosaic Idealize.ShloMosaic.TcCoe Idealize.SL.Sem Idealize.ShloMosaic.StableHlo

section Keep

variable {F : FTy → Type} [FloatOps F]

abbrev WritesIn (W : List (Ref sig .tc)) (op : HloOp τ sig (Elt F)) : Prop :=
  op.writes ⊆ (W.map (Proc.devRef (τ := τ) .tc)).toFinset

local macro "stage_writes" : tactic =>
  `(tactic| (simp only [WritesIn, List.cons_append, List.nil_append, List.Forall, nullary_writes, unary_writes,
      binary_writes, ternary_writes, reshape_writes, Finset.singleton_subset_iff, List.mem_toFinset]
             repeat' apply And.intro
             all_goals exact List.mem_map_of_mem (f := Proc.devRef (τ := τ) .tc) (by decide)))

set_option maxRecDepth 8192 in
theorem opsA1_writes : (opsA1 : List (HloOp τ sig (Elt F))).Forall (WritesIn opsA1_W) := by stage_writes
set_option maxRecDepth 8192 in
theorem opsN1_writes : (opsN1 : List (HloOp τ sig (Elt F))).Forall (WritesIn opsN1_W) := by stage_writes
set_option maxRecDepth 8192 in
theorem opsA2_writes : (opsA2 : List (HloOp τ sig (Elt F))).Forall (WritesIn opsA2_W) := by stage_writes
set_option maxRecDepth 8192 in
theorem opsN2_writes : (opsN2 : List (HloOp τ sig (Elt F))).Forall (WritesIn opsN2_W) := by stage_writes
set_option maxRecDepth 8192 in
theorem opsA3_writes : (opsA3 : List (HloOp τ sig (Elt F))).Forall (WritesIn opsA3_W) := by stage_writes
set_option maxRecDepth 8192 in
theorem opsN3_writes : (opsN3 : List (HloOp τ sig (Elt F))).Forall (WritesIn opsN3_W) := by stage_writes
set_option maxRecDepth 8192 in
theorem opsH_writes : (opsH : List (HloOp τ sig (Elt F))).Forall (WritesIn opsH_W) := by stage_writes
set_option maxRecDepth 8192 in
theorem opsFn_writes : (opsFn : List (HloOp τ sig (Elt F))).Forall (WritesIn opsFn_W) := by stage_writes

theorem keepA1 (V : Valuation τ sig (Elt F)) (r : Ref sig .tc) (h : r ∉ opsA1_W) :
    after opsA1 V (Proc.devRef .tc r) = V (Proc.devRef .tc r) :=
  after_of_writes_sub opsA1 V opsA1_writes h

theorem keepN1 (V : Valuation τ sig (Elt F)) (r : Ref sig .tc) (h : r ∉ opsN1_W) :
    after opsN1 V (Proc.devRef .tc r) = V (Proc.devRef .tc r) :=
  after_of_writes_sub opsN1 V opsN1_writes h

theorem keepA2 (V : Valuation τ sig (Elt F)) (r : Ref sig .tc) (h : r ∉ opsA2_W) :
    after opsA2 V (Proc.devRef .tc r) = V (Proc.devRef .tc r) :=
  after_of_writes_sub opsA2 V opsA2_writes h

theorem keepN2 (V : Valuation τ sig (Elt F)) (r : Ref sig .tc) (h : r ∉ opsN2_W) :
    after opsN2 V (Proc.devRef .tc r) = V (Proc.devRef .tc r) :=
  after_of_writes_sub opsN2 V opsN2_writes h

theorem keepA3 (V : Valuation τ sig (Elt F)) (r : Ref sig .tc) (h : r ∉ opsA3_W) :
    after opsA3 V (Proc.devRef .tc r) = V (Proc.devRef .tc r) :=
  after_of_writes_sub opsA3 V opsA3_writes h

theorem keepN3 (V : Valuation τ sig (Elt F)) (r : Ref sig .tc) (h : r ∉ opsN3_W) :
    after opsN3 V (Proc.devRef .tc r) = V (Proc.devRef .tc r) :=
  after_of_writes_sub opsN3 V opsN3_writes h

theorem keepH (V : Valuation τ sig (Elt F)) (r : Ref sig .tc) (h : r ∉ opsH_W) :
    after opsH V (Proc.devRef .tc r) = V (Proc.devRef .tc r) :=
  after_of_writes_sub opsH V opsH_writes h

theorem keepFn (V : Valuation τ sig (Elt F)) (r : Ref sig .tc) (h : r ∉ opsFn_W) :
    after opsFn V (Proc.devRef .tc r) = V (Proc.devRef .tc r) :=
  after_of_writes_sub opsFn V opsFn_writes h

def V1 (V : Valuation τ sig (Elt F)) : Valuation τ sig (Elt F) := after opsA1 V
def V2 (V : Valuation τ sig (Elt F)) : Valuation τ sig (Elt F) := after opsN1 (V1 V)
def V3 (V : Valuation τ sig (Elt F)) : Valuation τ sig (Elt F) := after opsA2 (V2 V)
def V4 (V : Valuation τ sig (Elt F)) : Valuation τ sig (Elt F) := after opsN2 (V3 V)
def V5 (V : Valuation τ sig (Elt F)) : Valuation τ sig (Elt F) := after opsA3 (V4 V)
def V6 (V : Valuation τ sig (Elt F)) : Valuation τ sig (Elt F) := after opsN3 (V5 V)
def V7 (V : Valuation τ sig (Elt F)) : Valuation τ sig (Elt F) := after opsH (V6 V)
def V8 (V : Valuation τ sig (Elt F)) : Valuation τ sig (Elt F) := after opsFn (V7 V)

theorem after_ops_eq_V8 (V : Valuation τ sig (Elt F)) : after ops V = V8 V := after_ops V

abbrev W1 : List (Ref sig .tc) := opsA1_W
abbrev W2 : List (Ref sig .tc) := W1 ++ opsN1_W
abbrev W3 : List (Ref sig .tc) := W2 ++ opsA2_W
abbrev W4 : List (Ref sig .tc) := W3 ++ opsN2_W
abbrev W5 : List (Ref sig .tc) := W4 ++ opsA3_W
abbrev W6 : List (Ref sig .tc) := W5 ++ opsN3_W
abbrev W7 : List (Ref sig .tc) := W6 ++ opsH_W
abbrev W8 : List (Ref sig .tc) := W7 ++ opsFn_W

private theorem nml {r : Ref sig .tc} {l₁ l₂ : List (Ref sig .tc)} (h : r ∉ l₁ ++ l₂) : r ∉ l₁ :=
  fun m => h (List.mem_append_left _ m)
private theorem nmr {r : Ref sig .tc} {l₁ l₂ : List (Ref sig .tc)} (h : r ∉ l₁ ++ l₂) : r ∉ l₂ :=
  fun m => h (List.mem_append_right _ m)

variable (V : Valuation τ sig (Elt F)) (r : Ref sig .tc)

theorem V1_keep (h : r ∉ W1) : V1 V (Proc.devRef .tc r) = V (Proc.devRef .tc r) := keepA1 V r h
theorem V2_keep (h : r ∉ W2) : V2 V (Proc.devRef .tc r) = V (Proc.devRef .tc r) :=
  (keepN1 (V1 V) r (nmr h)).trans (V1_keep V r (nml h))
theorem V3_keep (h : r ∉ W3) : V3 V (Proc.devRef .tc r) = V (Proc.devRef .tc r) :=
  (keepA2 (V2 V) r (nmr h)).trans (V2_keep V r (nml h))
theorem V4_keep (h : r ∉ W4) : V4 V (Proc.devRef .tc r) = V (Proc.devRef .tc r) :=
  (keepN2 (V3 V) r (nmr h)).trans (V3_keep V r (nml h))
theorem V5_keep (h : r ∉ W5) : V5 V (Proc.devRef .tc r) = V (Proc.devRef .tc r) :=
  (keepA3 (V4 V) r (nmr h)).trans (V4_keep V r (nml h))
theorem V6_keep (h : r ∉ W6) : V6 V (Proc.devRef .tc r) = V (Proc.devRef .tc r) :=
  (keepN3 (V5 V) r (nmr h)).trans (V5_keep V r (nml h))
theorem V7_keep (h : r ∉ W7) : V7 V (Proc.devRef .tc r) = V (Proc.devRef .tc r) :=
  (keepH (V6 V) r (nmr h)).trans (V6_keep V r (nml h))
theorem V8_keep (h : r ∉ W8) : V8 V (Proc.devRef .tc r) = V (Proc.devRef .tc r) :=
  (keepFn (V7 V) r (nmr h)).trans (V7_keep V r (nml h))

end Keep

section Args

variable {F : FTy → Type} [FloatOps F] (V : Valuation τ sig (Elt F))

/-- A buffer none of the eight stages writes holds after the run what it held before. -/
theorem arg_eq (r : Ref sig .tc) (h : r ∉ W8) : after ops V (Proc.devRef .tc r) = V (Proc.devRef .tc r) := by
  rw [after_ops_eq_V8]; exact V8_keep V r h

end Args

end Cert.ReferenceIdeal.HandRun

namespace Cert.ReferenceIdeal.Val

open Cert.ReferenceIdeal Cert.ReferenceIdeal.Gen Cert.ReferenceIdeal.HandRun
open Idealize.ShloMosaic Idealize.ShloMosaic.TcCoe Idealize.SL.Sem Idealize.ShloMosaic.StableHlo
open Cert.KernelIdeal.HostSpec (srcIdx dstIdx coef dinvSq agg128 agg256)
open Cert.ReferenceIdeal.Stage (lnElu128 lnElu256 lnElu64)

variable (V : Valuation τ sig (Elt Ideal))

def y1 : FVec Ideal S50000x128 .f32 :=
  lnElu128 (agg128 (Host.dotGeneral (F := Ideal) (φ₁ := .f32) (φ₂ := .f32) dot_S50000x128_S128x128_S50000x128_1_0_0_1_n_n none (V (Proc.devRef .tc main_arg0)) (V (Proc.devRef .tc main_arg2))) (srcIdx (V (Proc.devRef .tc main_arg1))) (dstIdx (V (Proc.devRef .tc main_arg1))) (coef (V (Proc.devRef .tc main_arg1))) (dinvSq (V (Proc.devRef .tc main_arg1)))) (V (Proc.devRef .tc main_arg3)) (V (Proc.devRef .tc main_arg4)) (V (Proc.devRef .tc main_arg5))

def y2 : FVec Ideal S50000x256 .f32 :=
  lnElu256 (agg256 (Host.dotGeneral (F := Ideal) (φ₁ := .f32) (φ₂ := .f32) dot_S50000x128_S128x256_S50000x256_1_0_0_1_n_n none (y1 V) (V (Proc.devRef .tc main_arg6))) (srcIdx (V (Proc.devRef .tc main_arg1))) (dstIdx (V (Proc.devRef .tc main_arg1))) (coef (V (Proc.devRef .tc main_arg1))) (dinvSq (V (Proc.devRef .tc main_arg1)))) (V (Proc.devRef .tc main_arg7)) (V (Proc.devRef .tc main_arg8)) (V (Proc.devRef .tc main_arg9))

def y3 : FVec Ideal S50000x128 .f32 :=
  lnElu128 (agg128 (Host.dotGeneral (F := Ideal) (φ₁ := .f32) (φ₂ := .f32) dot_S50000x256_S256x128_S50000x128_1_0_0_1_n_n none (y2 V) (V (Proc.devRef .tc main_arg10))) (srcIdx (V (Proc.devRef .tc main_arg1))) (dstIdx (V (Proc.devRef .tc main_arg1))) (coef (V (Proc.devRef .tc main_arg1))) (dinvSq (V (Proc.devRef .tc main_arg1)))) (V (Proc.devRef .tc main_arg11)) (V (Proc.devRef .tc main_arg12)) (V (Proc.devRef .tc main_arg13))

def y4 : FVec Ideal S50000x64 .f32 :=
  lnElu64 (Host.dotGeneral (F := Ideal) (φ₁ := .f32) (φ₂ := .f32) dot_S50000x128_S128x64_S50000x64_1_0_0_1_n_n none (y3 V) (V (Proc.devRef .tc main_arg14))) (V (Proc.devRef .tc main_arg15)) (V (Proc.devRef .tc main_arg16)) (V (Proc.devRef .tc main_arg17))

theorem V2_v1 : V2 V (Proc.devRef .tc main_v1) = srcIdx (V (Proc.devRef .tc main_arg1)) :=
  (keepN1 (V1 V) main_v1 (by decide)).trans (stageA1_v1 V)
theorem V2_v3 : V2 V (Proc.devRef .tc main_v3) = dstIdx (V (Proc.devRef .tc main_arg1)) :=
  (keepN1 (V1 V) main_v3 (by decide)).trans (stageA1_v3 V)
theorem V4_v1 : V4 V (Proc.devRef .tc main_v1) = srcIdx (V (Proc.devRef .tc main_arg1)) :=
  (keepN2 (V3 V) main_v1 (by decide)).trans ((keepA2 (V2 V) main_v1 (by decide)).trans (V2_v1 V))
theorem V4_v3 : V4 V (Proc.devRef .tc main_v3) = dstIdx (V (Proc.devRef .tc main_arg1)) :=
  (keepN2 (V3 V) main_v3 (by decide)).trans ((keepA2 (V2 V) main_v3 (by decide)).trans (V2_v3 V))

theorem V1_v47 : V1 V (Proc.devRef .tc main_v47) = agg128 (Host.dotGeneral (F := Ideal) (φ₁ := .f32) (φ₂ := .f32) dot_S50000x128_S128x128_S50000x128_1_0_0_1_n_n none (V (Proc.devRef .tc main_arg0)) (V (Proc.devRef .tc main_arg2))) (srcIdx (V (Proc.devRef .tc main_arg1))) (dstIdx (V (Proc.devRef .tc main_arg1))) (coef (V (Proc.devRef .tc main_arg1))) (dinvSq (V (Proc.devRef .tc main_arg1))) := stageA1 V

theorem V2_v75 : V2 V (Proc.devRef .tc main_v75) = y1 V :=
  (stageN1 (V1 V)).trans (by
    rw [V1_v47, V1_keep V main_arg3 (by decide), V1_keep V main_arg4 (by decide), V1_keep V main_arg5 (by decide)]; rfl)

theorem V3_v119 : V3 V (Proc.devRef .tc main_v119) = agg256 (Host.dotGeneral (F := Ideal) (φ₁ := .f32) (φ₂ := .f32) dot_S50000x128_S128x256_S50000x256_1_0_0_1_n_n none (y1 V) (V (Proc.devRef .tc main_arg6))) (srcIdx (V (Proc.devRef .tc main_arg1))) (dstIdx (V (Proc.devRef .tc main_arg1))) (coef (V (Proc.devRef .tc main_arg1))) (dinvSq (V (Proc.devRef .tc main_arg1))) :=
  (stageA2 (V2 V) (V (Proc.devRef .tc main_arg1)) (V2_v1 V) (V2_v3 V)).trans (by rw [V2_v75, V2_keep V main_arg6 (by decide)])

theorem V4_v147 : V4 V (Proc.devRef .tc main_v147) = y2 V :=
  (stageN2 (V3 V)).trans (by
    rw [V3_v119, V3_keep V main_arg7 (by decide), V3_keep V main_arg8 (by decide), V3_keep V main_arg9 (by decide)]; rfl)

theorem V5_v191 : V5 V (Proc.devRef .tc main_v191) = agg128 (Host.dotGeneral (F := Ideal) (φ₁ := .f32) (φ₂ := .f32) dot_S50000x256_S256x128_S50000x128_1_0_0_1_n_n none (y2 V) (V (Proc.devRef .tc main_arg10))) (srcIdx (V (Proc.devRef .tc main_arg1))) (dstIdx (V (Proc.devRef .tc main_arg1))) (coef (V (Proc.devRef .tc main_arg1))) (dinvSq (V (Proc.devRef .tc main_arg1))) :=
  (stageA3 (V4 V) (V (Proc.devRef .tc main_arg1)) (V4_v1 V) (V4_v3 V)).trans (by rw [V4_v147, V4_keep V main_arg10 (by decide)])

theorem V6_v219 : V6 V (Proc.devRef .tc main_v219) = y3 V :=
  (stageN3 (V5 V)).trans (by
    rw [V5_v191, V5_keep V main_arg11 (by decide), V5_keep V main_arg12 (by decide), V5_keep V main_arg13 (by decide)]; rfl)

theorem V7_v248 : V7 V (Proc.devRef .tc main_v248) = y4 V :=
  (stageH (V6 V)).trans (by
    rw [V6_v219, V6_keep V main_arg14 (by decide), V6_keep V main_arg15 (by decide), V6_keep V main_arg16 (by decide), V6_keep V main_arg17 (by decide)]; rfl)

theorem V8_v252 : V8 V (Proc.devRef .tc main_v252)
    = addf (Host.dotGeneral (F := Ideal) (φ₁ := .f32) (φ₂ := .f32) dot_S50000x64_S64x500_S50000x500_1_0_0_1_n_n none (y4 V) (V (Proc.devRef .tc main_arg18)))
        (broadcastInDim S50000x500 ![0, 1] bcast_S1x500_S50000x500_0_1 (broadcastInDim S1x500 ![1] bcast_S500_S1x500_1 (V (Proc.devRef .tc main_arg19)))) :=
  (stageFn (V7 V)).trans (by rw [V7_v248, V7_keep V main_arg18 (by decide), V7_keep V main_arg19 (by decide)])

theorem out_eq :
    (after (ops (F := Ideal)) V (Proc.devRef .tc main_v252) : FVec Ideal S50000x500 .f32)
      = Cert.Final.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  rw [after_ops_eq_V8, V8_v252]
  unfold Cert.Final.out y4 y3 y2 y1
  with_reducible rfl

end Cert.ReferenceIdeal.Val

end
-- ==== Proof.lean ====
import proofs.«140160_j6760278524492_1_alg».proof.Defs
import proofs.«140160_j6760278524492_1_alg».proof.Proof.Gen.Kernel
import proofs.«140160_j6760278524492_1_alg».proof.Proof.Gen.Kernel.Frame
import proofs.«140160_j6760278524492_1_alg».proof.Proof.Gen.KernelIdeal
import proofs.«140160_j6760278524492_1_alg».proof.Proof.Gen.KernelIdeal.Frame
import proofs.«140160_j6760278524492_1_alg».proof.Proof.Gen.ReferenceIdeal
import proofs.«140160_j6760278524492_1_alg».proof.Proof.Gen.Pre_finite_inputs
import proofs.«140160_j6760278524492_1_alg».proof.Proof.KRun
import proofs.«140160_j6760278524492_1_alg».proof.Proof.KVal
import proofs.«140160_j6760278524492_1_alg».proof.Proof.RefRun
import proofs.«140160_j6760278524492_1_alg».proof.Proof.RefVal
import Idealize.ShloMosaic.Adequacy
import Idealize.ShloMosaic.Init

noncomputable section

namespace Cert.Proof

open Idealize.ShloMosaic Idealize.SL.Sem
open Cert.ReferenceIdeal.HandRun (arg_eq run_main)

theorem frame_k : Cert.frame_Kernel := fun m ρ _ => Cert.Kernel.Gen.frame m ρ
theorem frame_ki : Cert.frame_KernelIdeal := fun m ρ _ => Cert.KernelIdeal.Gen.frame m ρ

/-- The reference's host operations write none of its twenty argument buffers. -/
theorem frame_ri : Cert.frame_ReferenceIdeal := fun m ρ _ =>
  (θ_run Cert.ReferenceIdeal.defs _ _).mono
    (fun r h c => by and_intros <;> exact (h c _).trans (arg_eq _ _ (by decide)))
    (run_main (F := Ideal) m ρ)

theorem preserves : Cert.preserves_Kernel_KernelIdeal := trivial

/-- Both programs end at the same function of the twenty inputs, on which the two memories agree. -/
theorem algebraic : Cert.algebraic_KernelIdeal_ReferenceIdeal := by
  intro m ρ m' ρ' _ hagree
  refine ⟨fun c => Cert.KernelIdeal.Gen.W21 m ρ c (Proc.devRef .tc Cert.KernelIdeal.main_v104),
    Cert.KernelIdeal.HandRun.run_valued m ρ, ?_⟩
  refine (θ_run Cert.ReferenceIdeal.defs _ _).mono (fun r h c => ⟨(h c Cert.ReferenceIdeal.main_v252).trans ?_,
      by and_intros <;> exact (h c _).trans (arg_eq _ _ (by decide))⟩)
    (run_main (F := Ideal) m' ρ')
  have hk := Cert.KernelIdeal.Val.kval m ρ c
  obtain ⟨h0, h1, h2, h3, h4, h5, h6, h7, h8, h9, h10, h11, h12, h13, h14, h15, h16, h17, h18, h19⟩ := hagree c
  rw [← h0, ← h1, ← h2, ← h3, ← h4, ← h5, ← h6, ← h7, ← h8, ← h9, ← h10, ← h11, ← h12, ← h13, ← h14, ← h15, ← h16,
    ← h17, ← h18, ← h19] at hk
  exact (Cert.ReferenceIdeal.Val.out_eq (StableHlo.launchContents m' c)).trans hk.symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
